-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S1600000 : Shape := ⟨1, ![1600000]⟩
abbrev S100000 : Shape := ⟨1, ![100000]⟩
abbrev S9x64 : Shape := ⟨2, ![9, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part5 {F : FTy → Type} [FloatOps F] (main_arg20 : FVec F S6 .f32) (main_v83 : IVec S_ 1) (main_v84 : FVec F S64x6 .f32) (main_cst_32 : FVec F S_ .f32) : IVec S_ 1 :=
  let main_v85 : FVec F S64x6 .f32 := broadcastInDim S64x6 ![] bcast_S_S64x6 main_cst_32
  let main_v86 : IVec S64x6 1 := cmpf .olt main_v84 main_v85
  let main_c_33 : IVec S_ 1 := constantI S_ 1 1#1
  let main_v87 : IVec S_ 1 := (fun x v => Host.reduce IntOp.andi x v reducesTo_S64x6_S_d0_1 h_S_) main_v86 main_c_33
  let main_v88 : IVec S_ 1 := andi main_v83 main_v87
  let main_v89 : FVec F S6 .f32 := Host.absf main_arg20
  let main_cst_34 : FVec F S_ .f32 := constant S_ .f32 0x7F800000#32
  let main_v90 : FVec F S6 .f32 := broadcastInDim S6 ![] bcast_S_S6 main_cst_34
  let main_v91 : IVec S6 1 := cmpf .olt main_v89 main_v90
  let main_c_35 : IVec S_ 1 := constantI S_ 1 1#1
  let main_v92 : IVec S_ 1 := (fun x v => Host.reduce IntOp.andi x v reducesTo_S6_S_d0 h_S_) main_v91 main_c_35
  let main_v93 : IVec S_ 1 := andi main_v88 main_v92
  main_v93

def fn_part4 {F : FTy → Type} [FloatOps F] (main_arg16 : FVec F S64 .f32) (main_arg17 : FVec F S64x64 .f32) (main_arg18 : FVec F S64 .f32) (main_arg19 : FVec F S64x6 .f32) (main_arg20 : FVec F S6 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x6 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x6 .f32) (main_arg20 : FVec F S6 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_v63 main_v67

def fn_part2 {F : FTy → Type} [FloatOps F] (main_arg9 : FVec F S64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x6 .f32) (main_arg20 : FVec F S6 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_v48 main_v49 main_v50

def fn_part1 {F : FTy → Type} [FloatOps F] (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x6 .f32) (main_arg20 : FVec F S6 .f32) (main_v13 : IVec S_ 1) (main_v16 : IVec S9x64 1) : IVec S_ 1 :=
  let main_c_5 : IVec S_ 1 := constantI S_ 1 1#1
  let main_v17 : IVec S_ 1 := (fun x v => Host.reduce IntOp.andi x v reducesTo_S9x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x9 .f32) (main_arg1 : IVec S2x1600000 32) (main_arg2 : FVec F S1600000 .f32) (main_arg3 : IVec S100000 32) (main_arg4 : FVec F S9x64 .f32) (main_arg5 : FVec F S9x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x6 .f32) (main_arg20 : FVec F S6 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S9x64 .f32 := Host.absf main_arg4
  let main_cst_2 : FVec F S_ .f32 := constant S_ .f32 0x7F800000#32
  let main_v10 : FVec F S9x64 .f32 := broadcastInDim S9x64 ![] bcast_S_S9x64 main_cst_2
  let main_v11 : IVec S9x64 1 := cmpf .olt main_v9 main_v10
  let main_c_3 : IVec S_ 1 := constantI S_ 1 1#1
  let main_v12 : IVec S_ 1 := (fun x v => Host.reduce IntOp.andi x v reducesTo_S9x64_S_d0_1 h_S_) main_v11 main_c_3
  let main_v13 : IVec S_ 1 := andi main_v8 main_v12
  let main_v14 : FVec F S9x64 .f32 := Host.absf main_arg5
  let main_cst_4 : FVec F S_ .f32 := constant S_ .f32 0x7F800000#32
  let main_v15 : FVec F S9x64 .f32 := broadcastInDim S9x64 ![] bcast_S_S9x64 main_cst_4
  let main_v16 : IVec S9x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x9 : Shape := ⟨2, ![100000, 9]⟩
abbrev S2x1600000 : Shape := ⟨2, ![2, 1600000]⟩
abbrev S1600000 : Shape := ⟨1, ![1600000]⟩
abbrev S100000 : Shape := ⟨1, ![100000]⟩
abbrev S9x64 : Shape := ⟨2, ![9, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S1x1600000 : Shape := ⟨2, ![1, 1600000]⟩
abbrev S_ : Shape := ⟨0, ![]⟩
abbrev S1600000x1 : Shape := ⟨2, ![1600000, 1]⟩
abbrev S1600000x9 : Shape := ⟨2, ![1600000, 9]⟩
abbrev S1x64 : Shape := ⟨2, ![1, 64]⟩
abbrev S100000x64 : Shape := ⟨2, ![100000, 64]⟩
abbrev S10000x9 : Shape := ⟨2, ![10000, 9]⟩
abbrev S10000x64 : Shape := ⟨2, ![10000, 64]⟩
abbrev S1600000x64 : Shape := ⟨2, ![1600000, 64]⟩
abbrev S100000x1 : Shape := ⟨2, ![100000, 1]⟩
abbrev S1024x64 : Shape := ⟨2, ![1024, 64]⟩
abbrev S1x1024 : Shape := ⟨2, ![1, 1024]⟩
abbrev S1000x64 : Shape := ⟨2, ![1000, 64]⟩
abbrev S1000x1 : Shape := ⟨2, ![1000, 1]⟩
abbrev S1000x1024 : Shape := ⟨2, ![1000, 1024]⟩
abbrev S1024 : Shape := ⟨1, ![1024]⟩
abbrev S1024x1 : Shape := ⟨2, ![1024, 1]⟩
abbrev S1x6 : Shape := ⟨2, ![1, 6]⟩
abbrev S1024x6 : Shape := ⟨2, ![1024, 6]⟩

abbrev nBuf : Space → Nat
  | .hbm => 126
  | .vmem => 63
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S9x64, .f32⟩
  | .hbm, ⟨5, _⟩ => ⟨S9x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x6, .f32⟩
  | .hbm, ⟨20, _⟩ => ⟨S6, .f32⟩
  | .hbm, ⟨21, _⟩ => ⟨S1x1600000, .i32⟩
  | .hbm, ⟨22, _⟩ => ⟨S1600000, .i32⟩
  | .hbm, ⟨23, _⟩ => ⟨S1x1600000, .i32⟩
  | .hbm, ⟨24, _⟩ => ⟨S1600000, .i32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x9, .f32⟩
  | .hbm, ⟨34, _⟩ => ⟨S1600000x1, .f32⟩
  | .hbm, ⟨35, _⟩ => ⟨S1600000x9, .f32⟩
  | .hbm, ⟨36, _⟩ => ⟨S1600000x9, .f32⟩
  | .hbm, ⟨37, _⟩ => ⟨S_, .f32⟩
  | .hbm, ⟨38, _⟩ => ⟨S100000x9, .f32⟩
  | .hbm, ⟨39, _⟩ => ⟨S1600000x1, .i32⟩
  | .hbm, ⟨40, _⟩ => ⟨S100000x9, .f32⟩
  | .hbm, ⟨41, _⟩ => ⟨S1x64, .f32⟩
  | .hbm, ⟨42, _⟩ => ⟨S100000x64, .f32⟩
  | .hbm, ⟨43, _⟩ => ⟨S1x64, .f32⟩
  | .hbm, ⟨44, _⟩ => ⟨S1x64, .f32⟩
  | .hbm, ⟨45, _⟩ => ⟨S_, .f32⟩
  | .hbm, ⟨46, _⟩ => ⟨S1x64, .f32⟩
  | .hbm, ⟨47, _⟩ => ⟨S1x64, .f32⟩
  | .hbm, ⟨48, _⟩ => ⟨S_, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S_, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S1600000x1, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S1x64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S_, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S_, .f32⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S100000x64, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x64, .f32⟩
  | .hbm, ⟨104, _⟩ => ⟨S1600000x1, .f32⟩
  | .hbm, ⟨105, _⟩ => ⟨S1600000x64, .f32⟩
  | .hbm, ⟨106, _⟩ => ⟨S1600000x64, .f32⟩
  | .hbm, ⟨107, _⟩ => ⟨S_, .f32⟩
  | .hbm, ⟨108, _⟩ => ⟨S100000x64, .f32⟩
  | .hbm, ⟨109, _⟩ => ⟨S1600000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x1, .i32⟩
  | .hbm, ⟨114, _⟩ => ⟨S1024x64, .f32⟩
  | .hbm, ⟨115, _⟩ => ⟨S1x1024, .f32⟩
  | .hbm, ⟨116, _⟩ => ⟨S1024, .f32⟩
  | .hbm, ⟨117, _⟩ => ⟨S_, .f32⟩
  | .hbm, ⟨118, _⟩ => ⟨S1024, .f32⟩
  | .hbm, ⟨119, _⟩ => ⟨S1024, .f32⟩
  | .hbm, ⟨120, _⟩ => ⟨S1024x1, .f32⟩
  | .hbm, ⟨121, _⟩ => ⟨S1024x64, .f32⟩
  | .hbm, ⟨122, _⟩ => ⟨S1024x64, .f32⟩
  | .hbm, ⟨123, _⟩ => ⟨S1x64, .f32⟩
  | .hbm, ⟨124, _⟩ => ⟨S1x6, .f32⟩
  | .hbm, ⟨125, _⟩ => ⟨S1024x6, .f32⟩
  | .local _ .vmem, ⟨0, _⟩ => ⟨S10000x9, .f32⟩
  | .local _ .vmem, ⟨1, _⟩ => ⟨S10000x9, .f32⟩
  | .local _ .vmem, ⟨2, _⟩ => ⟨S10000x9, .f32⟩
  | .local _ .vmem, ⟨3, _⟩ => ⟨S10000x9, .f32⟩
  | .local _ .vmem, ⟨4, _⟩ => ⟨S9x64, .f32⟩
  | .local _ .vmem, ⟨5, _⟩ => ⟨S9x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S64x64, .f32⟩
  | .local _ .vmem, ⟨47, _⟩ => ⟨S64x64, .f32⟩
  | .local _ .vmem, ⟨48, _⟩ => ⟨S1x64, .f32⟩
  | .local _ .vmem, ⟨49, _⟩ => ⟨S10000x64, .f32⟩
  | .local _ .vmem, ⟨50, _⟩ => ⟨S10000x64, .f32⟩
  | .local _ .vmem, ⟨51, _⟩ => ⟨S1000x64, .f32⟩
  | .local _ .vmem, ⟨52, _⟩ => ⟨S1000x64, .f32⟩
  | .local _ .vmem, ⟨53, _⟩ => ⟨S1000x1, .i32⟩
  | .local _ .vmem, ⟨54, _⟩ => ⟨S1000x1, .i32⟩
  | .local _ .vmem, ⟨55, _⟩ => ⟨S1024x64, .f32⟩
  | .local _ .vmem, ⟨56, _⟩ => ⟨S1x1024, .f32⟩
  | .local _ .vmem, ⟨57, _⟩ => ⟨S1024x64, .f32⟩
  | .local _ .vmem, ⟨58, _⟩ => ⟨S64x64, .f32⟩
  | .local _ .vmem, ⟨59, _⟩ => ⟨S1x64, .f32⟩
  | .local _ .vmem, ⟨60, _⟩ => ⟨S64x6, .f32⟩
  | .local _ .vmem, ⟨61, _⟩ => ⟨S1x6, .f32⟩
  | .local _ .vmem, ⟨62, _⟩ => ⟨S1024x6, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19_0 : Ref sig .tc := ⟨.hbm, 43, rfl⟩
abbrev main_v19_1 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_4 : Ref sig .tc := ⟨.hbm, 60, rfl⟩
abbrev main_v32 : Ref sig .tc := ⟨.hbm, 61, rfl⟩
abbrev main_v33 : Ref sig .tc := ⟨.hbm, 62, rfl⟩
abbrev main_c_5 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47_0 : Ref sig .tc := ⟨.hbm, 78, rfl⟩
abbrev main_v47_1 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_10 : Ref sig .tc := ⟨.hbm, 95, rfl⟩
abbrev main_v60 : Ref sig .tc := ⟨.hbm, 96, rfl⟩
abbrev main_v61 : Ref sig .tc := ⟨.hbm, 97, rfl⟩
abbrev main_c_11 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_12 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76_0 : Ref sig .tc := ⟨.hbm, 114, rfl⟩
abbrev main_v76_1 : Ref sig .tc := ⟨.hbm, 115, rfl⟩
abbrev main_v77 : Ref sig .tc := ⟨.hbm, 116, rfl⟩
abbrev main_cst_13 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc8_stg0_0 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg4_0 : Ref sig .tc := ⟨.vmem, 61, rfl⟩
abbrev cc8_stg5_0 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem3_0 : DmaSem sig := 56
abbrev cc8_sem0_0 : DmaSem sig := 57
abbrev cc8_sem1_0 : DmaSem sig := 58
abbrev cc8_sem2_0 : DmaSem sig := 59
abbrev cc8_sem3_0 : DmaSem sig := 60
abbrev cc8_sem4_0 : DmaSem sig := 61
abbrev cc8_sem5_0 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1024x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1024x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x6 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x6 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1024x6 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x9_0_1 : S1600000x1.BroadcastsInDim S1600000x9 (![0, 1] : Fin 2 → Fin S1600000x9.rank)
  bcast_S_S100000x9 : S_.BroadcastsInDim S100000x9 (![] : Fin 0 → Fin S100000x9.rank)
  shapeCasts_S64_S1x64 : S64.ShapeCasts S1x64
  inb_S10000x9_S10000x9_0_0 : ∀ a, (![0, 0] : Fin 2 → Nat) a + S10000x9.size a ≤ S10000x9.size a
  h_S10000x9 : 0 < S10000x9.numel
  shapeCasts_S10000x9_S10000x9 : S10000x9.ShapeCasts S10000x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S64 : S10000x64.Reduces [0] S64
  bcast_S_S1x64 : S_.BroadcastsInDim S1x64 (![] : Fin 0 → Fin S1x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S1024x64_S1024x64_0_0 : ∀ a, (![0, 0] : Fin 2 → Nat) a + S1024x64.size a ≤ S1024x64.size a
  h_S1024x64 : 0 < S1024x64.numel
  inb_S1x1024_S1x1024_0_0 : ∀ a, (![0, 0] : Fin 2 → Nat) a + S1x1024.size a ≤ S1x1024.size a
  h_S1x1024 : 0 < S1x1024.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1024_d1_w32 : S1000x1024.Iotas .tc 32 [1]
  broadcasts_S1000x1_S1000x1024 : S1000x1.Broadcasts S1000x1024
  natLt_1_32 : 1 < 32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  shapeCasts_S1024x64_S1024x64 : S1024x64.ShapeCasts S1024x64
  shapeCasts_S1x1024_S1x1024 : S1x1024.ShapeCasts S1x1024
  reduces_S1000x1024_S1024 : S1000x1024.Reduces [0] S1024
  shapeCasts_S1024_S1x1024 : S1024.ShapeCasts S1x1024
  shapeCasts_S1x1024_S1024 : S1x1024.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  shapeCasts_S6_S1x6 : S6.ShapeCasts S1x6
  broadcasts_S1x64_S1024x64 : S1x64.Broadcasts S1024x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S1024x6 : S1x6.Broadcasts S1024x6
  inb_S1024x6_S1024x6_0_0 : ∀ a, (![0, 0] : Fin 2 → Nat) a + S1024x6.size a ≤ S1024x6.size a
  h_S1024x6 : 0 < S1024x6.numel
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S10000x9_S9x64_S10000x64_1_0_0_1_n_n_wf : DotDims.WF S10000x9 S9x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S1000x1024_S1000x64_S1024x64_0_0_1_1_n_n_wf : DotDims.WF S1000x1024 S1000x64 S1024x64 [0] [0] [1] [1] [] []
  dot_S1024x64_S64x64_S1024x64_1_0_0_1_n_n_wf : DotDims.WF S1024x64 S64x64 S1024x64 [1] [0] [0] [1] [] []
  dot_S1024x64_S64x6_S1024x6_1_0_0_1_n_n_wf : DotDims.WF S1024x64 S64x6 S1024x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x9.size a ≤ S100000x9.size a
  hwx0_0 : ∀ i : grid0.Coords, EltTy.bits .f32 = 32 ∨ (Rect.block (s := S100000x9) S10000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x9.size a ≤ S100000x9.size a
  hwx0_1 : ∀ i : grid0.Coords, EltTy.bits .f32 = 32 ∨ (Rect.block (s := S100000x9) S10000x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64.size a ≤ S9x64.size a
  hwx0_2 : ∀ i : grid0.Coords, EltTy.bits .f32 = 32 ∨ (Rect.block (s := S9x64) S9x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x64.size a ≤ S100000x64.size a
  hwx7_0 : ∀ i : grid7.Coords, EltTy.bits .f32 = 32 ∨ (Rect.block (s := S100000x64) S1000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x1.size a ≤ S100000x1.size a
  hwx7_1 : ∀ i : grid7.Coords, EltTy.bits .i32 = 32 ∨ (Rect.block (s := S100000x1) S1000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1024x64.size a ≤ S1024x64.size a
  hwx7_2 : ∀ i : grid7.Coords, EltTy.bits .f32 = 32 ∨ (Rect.block (s := S1024x64) S1024x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1024.size a ≤ S1x1024.size a
  hwx7_3 : ∀ i : grid7.Coords, EltTy.bits .f32 = 32 ∨ (Rect.block (s := S1x1024) S1x1024.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1024x64.size a ≤ S1024x64.size a
  hwx8_0 : ∀ i : grid8.Coords, EltTy.bits .f32 = 32 ∨ (Rect.block (s := S1024x64) S1024x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x6.size a ≤ S64x6.size a
  hwx8_3 : ∀ i : grid8.Coords, EltTy.bits .f32 = 32 ∨ (Rect.block (s := S64x6) S64x6.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x6.size a ≤ S1x6.size a
  hwx8_4 : ∀ i : grid8.Coords, EltTy.bits .f32 = 32 ∨ (Rect.block (s := S1x6) S1x6.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1024x6.size a ≤ S1024x6.size a
  hwx8_5 : ∀ i : grid8.Coords, EltTy.bits .f32 = 32 ∨ (Rect.block (s := S1024x6) S1024x6.size (cc8_transform_5 i) (hinb8_5 i)).WholeWords (EltTy.packing .f32)

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S10000x9_S9x64_S10000x64_1_0_0_1_n_n : DotDims S10000x9 S9x64 S10000x64 where
  lhsContracting := [1]
  rhsContracting := [0]
  lhsNonContracting := [0]
  rhsNonContracting := [1]
  lhsBatch := []
  rhsBatch := []
  wf := dot_S10000x9_S9x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1000x1024_S1000x64_S1024x64_0_0_1_1_n_n : DotDims S1000x1024 S1000x64 S1024x64 where
  lhsContracting := [0]
  rhsContracting := [0]
  lhsNonContracting := [1]
  rhsNonContracting := [1]
  lhsBatch := []
  rhsBatch := []
  wf := dot_S1000x1024_S1000x64_S1024x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x6_S1024x6_1_0_0_1_n_n : DotDims S1024x64 S64x6 S1024x6 where
  lhsContracting := [1]
  rhsContracting := [0]
  lhsNonContracting := [0]
  rhsNonContracting := [1]
  lhsBatch := []
  rhsBatch := []
  wf := dot_S1024x64_S64x6_S1024x6_1_0_0_1_n_n_wf

abbrev win0_0 : Pipeline.Window sig grid0 :=
  Pipeline.Window.ofSpec (Memref.whole main_v16) S10000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S9x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v46) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v46) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v72) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v73) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v74) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v74) S1000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S1000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v76_0) S1024x64.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v76_1) S1x1024.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v82) S1024x64.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg17) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v83) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg19) S64x6.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v84) S1x6.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v85) S1024x6.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S1600000 : Shape := ⟨1, ![1600000]⟩
abbrev S100000 : Shape := ⟨1, ![100000]⟩
abbrev S9x64 : Shape := ⟨2, ![9, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S1x1600000 : Shape := ⟨2, ![1, 1600000]⟩
abbrev S_ : Shape := ⟨0, ![]⟩
abbrev S1600000x1 : Shape := ⟨2, ![1600000, 1]⟩
abbrev S1600000x9 : Shape := ⟨2, ![1600000, 9]⟩
abbrev S100000x64 : Shape := ⟨2, ![100000, 64]⟩
abbrev S1x64 : Shape := ⟨2, ![1, 64]⟩
abbrev S1600000x64 : Shape := ⟨2, ![1600000, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x6 : Shape := ⟨2, ![1024, 6]⟩
abbrev S1x6 : Shape := ⟨2, ![1, 6]⟩

abbrev nBuf : Space → Nat
  | .hbm => 212
  | .vmem => 0
  | .smem => 0
  | _ => 0

abbrev hbmTy0_0 (i : Nat) : BufTy := match i % 128 with
  | 0 => ⟨S100000x9, .f32⟩
  | 1 => ⟨S2x1600000, .i32⟩
  | 2 => ⟨S1600000, .f32⟩
  | 3 => ⟨S100000, .i32⟩
  | 4 => ⟨S9x64, .f32⟩
  | 5 => ⟨S9x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x64, .f32⟩
  | 18 => ⟨S64, .f32⟩
  | 19 => ⟨S64x6, .f32⟩
  | 20 => ⟨S6, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x9, .f32⟩
  | 34 => ⟨S1600000x1, .f32⟩
  | 35 => ⟨S1600000x9, .f32⟩
  | 36 => ⟨S1600000x9, .f32⟩
  | 37 => ⟨S_, .f32⟩
  | 38 => ⟨S100000x9, .f32⟩
  | 39 => ⟨S1600000x1, .i32⟩
  | 40 => ⟨S100000x9, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S1600000x1, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S100000x64, .f32⟩
  | 115 => ⟨S100000x64, .f32⟩
  | 116 => ⟨S_, .f32⟩
  | 117 => ⟨S64, .f32⟩
  | 118 => ⟨S_, .f32⟩
  | 119 => ⟨S64, .f32⟩
  | 120 => ⟨S64, .f32⟩
  | 121 => ⟨S_, .i32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S100000x9, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S_, .f32⟩
  | 5 => ⟨S_, .f32⟩
  | 6 => ⟨S_, .f32⟩
  | 7 => ⟨S64, .f32⟩
  | 8 => ⟨S64, .f32⟩
  | 9 => ⟨S64, .f32⟩
  | 10 => ⟨S_, .f32⟩
  | 11 => ⟨S_, .i1⟩
  | 12 => ⟨S_, .f32⟩
  | 13 => ⟨S_, .f32⟩
  | 14 => ⟨S64, .f32⟩
  | 15 => ⟨S64, .f32⟩
  | 16 => ⟨S1x64, .f32⟩
  | 17 => ⟨S100000x64, .f32⟩
  | 18 => ⟨S100000x64, .f32⟩
  | 19 => ⟨S_, .f32⟩
  | 20 => ⟨S64, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S1600000x1, .f32⟩
  | 45 => ⟨S1600000x64, .f32⟩
  | 46 => ⟨S1600000x64, .f32⟩
  | 47 => ⟨S_, .f32⟩
  | 48 => ⟨S100000x64, .f32⟩
  | 49 => ⟨S1600000x1, .i32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S100000x64, .f32⟩
  | 56 => ⟨S100000x64, .f32⟩
  | 57 => ⟨S_, .f32⟩
  | 58 => ⟨S1024x64, .f32⟩
  | 59 => ⟨S100000x1, .i32⟩
  | 60 => ⟨S1024x64, .f32⟩
  | 61 => ⟨S_, .f32⟩
  | 62 => ⟨S100000, .f32⟩
  | 63 => ⟨S_, .f32⟩
  | 64 => ⟨S1024, .f32⟩
  | 65 => ⟨S100000x1, .i32⟩
  | 66 => ⟨S1024, .f32⟩
  | 67 => ⟨S_, .f32⟩
  | 68 => ⟨S1024, .f32⟩
  | 69 => ⟨S1024, .f32⟩
  | 70 => ⟨S1024x1, .f32⟩
  | 71 => ⟨S1024x64, .f32⟩
  | 72 => ⟨S1024x64, .f32⟩
  | 73 => ⟨S1024x64, .f32⟩
  | 74 => ⟨S1x64, .f32⟩
  | 75 => ⟨S1024x64, .f32⟩
  | 76 => ⟨S1024x64, .f32⟩
  | 77 => ⟨S_, .f32⟩
  | 78 => ⟨S1024x64, .f32⟩
  | 79 => ⟨S1024x64, .f32⟩
  | 80 => ⟨S1024x6, .f32⟩
  | 81 => ⟨S1x6, .f32⟩
  | 82 => ⟨S1024x6, .f32⟩
  | 83 => ⟨S1024x6, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_c_3 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_4 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_call1_cst : Ref sig .tc := ⟨.hbm, 91, rfl⟩
abbrev main_call1_v0 : Ref sig .tc := ⟨.hbm, 92, rfl⟩
abbrev main_v42 : Ref sig .tc := ⟨.hbm, 93, rfl⟩
abbrev main_c_5 : Ref sig .tc := ⟨.hbm, 94, rfl⟩
abbrev main_v43 : Ref sig .tc := ⟨.hbm, 95, rfl⟩
abbrev main_v44 : Ref sig .tc := ⟨.hbm, 96, rfl⟩
abbrev main_c_6 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_7 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_8 : Ref sig .tc := ⟨.hbm, 116, rfl⟩
abbrev main_v62 : Ref sig .tc := ⟨.hbm, 117, rfl⟩
abbrev main_cst_9 : Ref sig .tc := ⟨.hbm, 118, rfl⟩
abbrev main_v63 : Ref sig .tc := ⟨.hbm, 119, rfl⟩
abbrev main_v64 : Ref sig .tc := ⟨.hbm, 120, rfl⟩
abbrev main_c_10 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_cst_1 : Ref sig .tc := ⟨.hbm, 132, rfl⟩
abbrev main_call2_v8 : Ref sig .tc := ⟨.hbm, 133, rfl⟩
abbrev main_call2_cst_2 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_cst_3 : Ref sig .tc := ⟨.hbm, 138, rfl⟩
abbrev main_call2_v12 : Ref sig .tc := ⟨.hbm, 139, rfl⟩
abbrev main_call2_cst_4 : Ref sig .tc := ⟨.hbm, 140, rfl⟩
abbrev main_call2_call0_v0 : Ref sig .tc := ⟨.hbm, 141, rfl⟩
abbrev main_call2_call0_v1 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_cst_11 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_call3_cst : Ref sig .tc := ⟨.hbm, 160, rfl⟩
abbrev main_call3_v0 : Ref sig .tc := ⟨.hbm, 161, rfl⟩
abbrev main_v81 : Ref sig .tc := ⟨.hbm, 162, rfl⟩
abbrev main_c_12 : Ref sig .tc := ⟨.hbm, 163, rfl⟩
abbrev main_v82 : Ref sig .tc := ⟨.hbm, 164, rfl⟩
abbrev main_v83 : Ref sig .tc := ⟨.hbm, 165, rfl⟩
abbrev main_c_13 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_cst_14 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_cst_15 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_cst_16 : Ref sig .tc := ⟨.hbm, 189, rfl⟩
abbrev main_v104 : Ref sig .tc := ⟨.hbm, 190, rfl⟩
abbrev main_cst_17 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_cst_18 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_call4_cst : Ref sig .tc := ⟨.hbm, 205, rfl⟩
abbrev main_call4_v0 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x9_0_1 : S1600000x1.BroadcastsInDim S1600000x9 (![0, 1] : Fin 2 → Fin S1600000x9.rank)
  bcast_S_S100000x9 : S_.BroadcastsInDim S100000x9 (![] : Fin 0 → Fin S100000x9.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S6_S1x6_1 : S6.BroadcastsInDim S1x6 (![1] : Fin 1 → Fin S1x6.rank)
  bcast_S1x6_S1024x6_0_1 : S1x6.BroadcastsInDim S1024x6 (![0, 1] : Fin 2 → Fin S1024x6.rank)
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S100000x9_S9x64_S100000x64_1_0_0_1_n_n_wf : DotDims.WF S100000x9 S9x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x64_S1024x64_1_0_0_1_n_n_wf : DotDims.WF S1024x64 S64x64 S1024x64 [1] [0] [0] [1] [] []
  dot_S1024x64_S64x6_S1024x6_1_0_0_1_n_n_wf : DotDims.WF S1024x64 S64x6 S1024x6 [1] [0] [0] [1] [] []

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x6_S1024x6_1_0_0_1_n_n : DotDims S1024x64 S64x6 S1024x6 where
  lhsContracting := [1]
  rhsContracting := [0]
  lhsNonContracting := [0]
  rhsNonContracting := [1]
  lhsBatch := []
  rhsBatch := []
  wf := dot_S1024x64_S64x6_S1024x6_1_0_0_1_n_n_wf

class Facts : Prop extends Facts₀ where

variable [Facts]
-- ==== Proof.LibDense.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.LibDense

open Idealize.ShloMosaic Idealize.ShloMosaic.ValueIdx

-- An n × m array of extended reals; `aff` is x·w + β row by row, `relu` the maximum with 0.
abbrev Mat (n m : Nat) : Type := (⟨2, ![n, m]⟩ : Shape).Idx → EReal

section Layers
variable {n k m : Nat}

def aff (x : Mat n k) (w : Mat k m) (β : Fin m → EReal) : Mat n m :=
  fun i => ∑ j : Fin k, x (ix2 (i 0) j) * w (ix2 j (i 1)) + β (i 1)

def relu (y : Mat n m) : Mat n m := fun i => max (y i) 0

theorem kernel_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (brow : FVec Ideal ⟨2, ![1, m]⟩ .f32)
    (hb : (⟨2, ![1, m]⟩ : Shape).Broadcasts ⟨2, ![n, m]⟩) :
    addf (matmul d none x w (constant ⟨2, ![n, m]⟩ .f32 0x00000000#32)) (broadcastTo ⟨2, ![n, m]⟩ brow hb)
      = aff x w (fun c => brow (ix2 (0 : Fin 1) c)) := by
  subst hd
  funext i
  obtain ⟨a, c, rfl⟩ : ∃ (a : Fin n) (c : Fin m), i = ix2 a c := ⟨i 0, i 1, eq_ix2 i⟩
  rw [addf_apply, matmul_zero_eq_dotGeneral, StackMember.dotGeneral_plain_apply, broadcastTo_1b_ab_apply]
  rfl

theorem kernel_product {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (a : Fin n) (c : Fin m) :
    matmul d none x w (constant ⟨2, ![n, m]⟩ .f32 0x00000000#32) (ix2 a c) = ∑ j : Fin k, x (ix2 a j) * w (ix2 j c) := by
  subst hd
  rw [matmul_zero_eq_dotGeneral, StackMember.dotGeneral_plain_apply]

theorem row_of_vector {α : Type} (b : (⟨1, ![m]⟩ : Shape).Idx → α)
    (h1 : (⟨1, ![m]⟩ : Shape).BroadcastsInDim ⟨2, ![1, m]⟩ ![1]) (c : Fin m) :
    broadcastInDim ⟨2, ![1, m]⟩ ![1] h1 b (ix2 (0 : Fin 1) c) = b (ix1 c) := by
  refine broadcastInDim_apply ![1] h1 b (ix2 (0 : Fin 1) c) (ix1 c) ?_
  intro a
  match a with
  | ⟨0, _⟩ =>
    show c.val = if m = 1 then 0 else c.val
    split
    · have := c.isLt; omega
    · rfl

theorem host_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (b : FVec Ideal ⟨1, ![m]⟩ .f32)
    (h1 : (⟨1, ![m]⟩ : Shape).BroadcastsInDim ⟨2, ![1, m]⟩ ![1])
    (h2 : (⟨2, ![1, m]⟩ : Shape).BroadcastsInDim ⟨2, ![n, m]⟩ ![0, 1]) :
    addf (Host.dotGeneral d none x w) (broadcastInDim ⟨2, ![n, m]⟩ ![0, 1] h2 (broadcastInDim ⟨2, ![1, m]⟩ ![1] h1 b))
      = aff x w (fun c => b (ix1 c)) := by
  subst hd
  funext i
  obtain ⟨a, c, rfl⟩ : ∃ (a : Fin n) (c : Fin m), i = ix2 a c := ⟨i 0, i 1, eq_ix2 i⟩
  rw [addf_apply, StackMember.dotGeneral_plain_apply, broadcastInDim_oneRow_apply, row_of_vector]
  rfl

theorem kernel_relu (y : FVec Ideal ⟨2, ![n, m]⟩ .f32) :
    maximumf y (broadcast ⟨2, ![n, m]⟩ (Scalar.ofBits (F := Ideal) .f32 0x00000000#32)) = relu y := by
  funext i
  show max (y i) (Ideal.ofBits .f32 0x00000000#32) = max (y i) 0
  rw [Ideal.ofBits_zero_f32]

theorem host_relu (y : FVec Ideal ⟨2, ![n, m]⟩ .f32)
    (h : (⟨0, ![]⟩ : Shape).BroadcastsInDim ⟨2, ![n, m]⟩ (![] : Fin 0 → Fin 2)) :
    maximumf y (broadcastInDim ⟨2, ![n, m]⟩ ![] h (constant (F := Ideal) ⟨0, ![]⟩ .f32 0x00000000#32)) = relu y := by
  funext i
  rw [maximumf_apply, broadcastInDim_apply ![] h _ i ix0 (fun a => a.elim0), constant_apply, Ideal.ofBits_zero_f32]
  rfl

end Layers

end Cert.LibDense

end
-- ==== Proof.Spec.lean ====
import Idealize.ShloMosaic.PureOps.Ideal.Laws
import Idealize.ShloMosaic.Lib.ValueIdx
import proofs.«419311_j30124900614317_1_alg».proof.Proof.LibDense

noncomputable section

open scoped BigOperators

-- The graph network both programs compute, as functions of arrays of extended reals; `varK` and `varR` are the two spellings of the variance.
namespace Cert.GraphNet

open Idealize.ShloMosaic Idealize.ShloMosaic.ValueIdx
open Cert.LibDense (Mat aff relu)

def IsReal (x : EReal) : Prop := ∃ r : ℝ, x = (r : EReal)

def RealMat {n m : Nat} (x : Mat n m) : Prop := ∀ i, IsReal (x i)
def RealVec {m : Nat} (v : Fin m → EReal) : Prop := ∀ j, IsReal (v j)

def KeepsReal {n m : Nat} (A : Mat n m → Mat n m) : Prop := ∀ t, RealMat t → RealMat (A t)

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with e | e <;> rw [e] <;> assumption

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h _ (Finset.mem_insert_self _ _)).add (ih fun i hi => h i (Finset.mem_insert_of_mem hi))

def nodes : EReal := Ideal.ofBits .f32 0x47C35000#32
def eps : EReal := Ideal.ofBits .f32 0x3727C5AC#32
def one : EReal := Ideal.ofBits .f32 0x3F800000#32

section Layer
variable {n k m : Nat}

def rowOf (v : Fin m → EReal) : Mat 1 m := fun i => v (i 1)

def conv (a x : Mat n k) (wr wo : Mat k m) (b : Fin m → EReal) : Mat n m :=
  fun i => aff a wr b i + ∑ q : Fin k, x (ix2 (i 0) q) * wo (ix2 q (i 1))

def colsum (h : Mat n m) (j : Fin m) : EReal := ∑ r : Fin n, h (ix2 r j)
def colsumsq (h : Mat n m) (j : Fin m) : EReal := ∑ r : Fin n, h (ix2 r j) * h (ix2 r j)

def mean (h : Mat n m) (j : Fin m) : EReal := Ideal.div (colsum h j) nodes

def varK (h : Mat n m) (j : Fin m) : EReal := Ideal.div (colsumsq h j) nodes - mean h j * mean h j

def varR (h : Mat n m) (j : Fin m) : EReal :=
  Ideal.div (∑ r : Fin n, (h (ix2 r j) - mean h j) * (h (ix2 r j) - mean h j)) nodes

def invstd (v : Fin m → EReal) (j : Fin m) : EReal := Ideal.rsqrt (v j + eps)

def bnApply (h : Mat n m) (mu s g be : Fin m → EReal) : Mat n m :=
  fun i => max ((h i - mu (i 1)) * s (i 1) * g (i 1) + be (i 1)) 0

def bnWith (V : Mat n m → Fin m → EReal) (h : Mat n m) (g be : Fin m → EReal) : Mat n m :=
  bnApply h (mean h) (invstd (V h)) g be

def poolSum {G : Nat} (h : Mat n m) (batch : Fin n → BitVec 32) : Mat G m :=
  fun i => ∑ r : Fin n, if (batch r).toInt = ((i 0).val : ℤ) then h (ix2 r (i 1)) else 0

def poolCnt {G : Nat} (batch : Fin n → BitVec 32) (v : Fin G) : EReal :=
  ∑ r : Fin n, if (batch r).toInt = (v.val : ℤ) then (1 : EReal) else 0

def pooled {G : Nat} (h : Mat n m) (batch : Fin n → BitVec 32) : Mat G m :=
  fun i => Ideal.div (poolSum h batch i) (max (poolCnt (G := G) batch (i 0)) one)

def mlp {p q : Nat} (x : Mat n k) (w1 : Mat k p) (b1 : Fin p → EReal) (w2 : Mat p q) (b2 : Fin q → EReal) : Mat n q :=
  aff (relu (aff x w1 b1)) w2 b2

end Layer

structure Inputs where
  x : Mat 100000 9
  batch : Fin 100000 → BitVec 32
  wrel0 : Mat 9 64
  wroot0 : Mat 9 64
  b0 : Fin 64 → EReal
  wrel1 : Mat 64 64
  wroot1 : Mat 64 64
  b1 : Fin 64 → EReal
  wrel2 : Mat 64 64
  wroot2 : Mat 64 64
  b2 : Fin 64 → EReal
  g0 : Fin 64 → EReal
  be0 : Fin 64 → EReal
  g1 : Fin 64 → EReal
  be1 : Fin 64 → EReal
  wl1 : Mat 64 64
  bl1 : Fin 64 → EReal
  wl2 : Mat 64 6
  bl2 : Fin 6 → EReal

structure Inputs.Real (p : Inputs) : Prop where
  x : RealMat p.x
  wrel0 : RealMat p.wrel0
  wroot0 : RealMat p.wroot0
  b0 : RealVec p.b0
  wrel1 : RealMat p.wrel1
  wroot1 : RealMat p.wroot1
  b1 : RealVec p.b1
  wrel2 : RealMat p.wrel2
  wroot2 : RealMat p.wroot2
  b2 : RealVec p.b2
  g0 : RealVec p.g0
  be0 : RealVec p.be0
  g1 : RealVec p.g1
  be1 : RealVec p.be1
  wl1 : RealMat p.wl1
  bl1 : RealVec p.bl1
  wl2 : RealMat p.wl2
  bl2 : RealVec p.bl2

section Net
variable (V : Mat 100000 64 → Fin 64 → EReal)
variable (A9 : Mat 100000 9 → Mat 100000 9) (A64 : Mat 100000 64 → Mat 100000 64) (p : Inputs)

def H0 : Mat 100000 64 := conv (A9 p.x) p.x p.wrel0 p.wroot0 p.b0
def Y0 : Mat 100000 64 := bnWith V (H0 A9 p) p.g0 p.be0
def H1 : Mat 100000 64 := conv (A64 (Y0 V A9 p)) (Y0 V A9 p) p.wrel1 p.wroot1 p.b1
def Y1 : Mat 100000 64 := bnWith V (H1 V A9 A64 p) p.g1 p.be1
def H2 : Mat 100000 64 := conv (A64 (Y1 V A9 A64 p)) (Y1 V A9 A64 p) p.wrel2 p.wroot2 p.b2
def out : Mat 1024 6 := mlp (pooled (H2 V A9 A64 p) p.batch) p.wl1 p.bl1 p.wl2 p.bl2

end Net

end Cert.GraphNet

end
-- ==== Proof.ConvRowBlocks.lean ====
import proofs.«419311_j30124900614317_1_alg».proof.Proof.Spec
import proofs.«419311_j30124900614317_1_alg».proof.Proof.LibDense

noncomputable section

open scoped BigOperators

namespace Cert.ConvRowBlocks

open Idealize.ShloMosaic Idealize.ShloMosaic.ValueIdx
open Idealize.ShloMosaic.Pipeline (Dat Cfg Window Grid)
open Cert.LibDense (Mat)

variable {n n' k m : Nat}

theorem zero_off : (![0, 0] : Fin 2 → Nat) = fun _ => 0 :=
  funext (Fin.forall_fin_two.2 ⟨rfl, rfl⟩)

theorem conv_apply (a x : Mat n k) (wr wo : Mat k m) (b : Fin m → EReal) (r : Fin n) (q : Fin m) :
    Cert.GraphNet.conv a x wr wo b (ix2 r q)
      = (∑ j : Fin k, a (ix2 r j) * wr (ix2 j q) + b q) + ∑ j : Fin k, x (ix2 r j) * wo (ix2 j q) := rfl

-- An entry of the layer reads one row of a and of x, and nothing else of them.
theorem conv_of_rows (a' x' : Mat n' k) (a x : Mat n k) (wr wo : Mat k m) (b : Fin m → EReal)
    (p : Fin n') (r : Fin n) (q : Fin m)
    (ha : ∀ j : Fin k, a' (ix2 p j) = a (ix2 r j)) (hx : ∀ j : Fin k, x' (ix2 p j) = x (ix2 r j)) :
    Cert.GraphNet.conv a' x' wr wo b (ix2 p q) = Cert.GraphNet.conv a x wr wo b (ix2 r q) := by
  rw [conv_apply, conv_apply]
  simp only [ha, hx]

-- Two products accumulated from zero plus the bias row repeated down the rows: the layer's three terms, the last two exchanged.
theorem dense_entry {φ₁ φ₂ : FTy} (d : DotDims ⟨2, ![n, k]⟩ ⟨2, ![k, m]⟩ ⟨2, ![n, m]⟩) (hd : d = DotDims.plain n k m)
    (a x : FVec Ideal ⟨2, ![n, k]⟩ φ₁) (wr wo : FVec Ideal ⟨2, ![k, m]⟩ φ₂) (b : FVec Ideal ⟨2, ![1, m]⟩ .f32)
    (hb : (⟨2, ![1, m]⟩ : Shape).Broadcasts ⟨2, ![n, m]⟩) (r : Fin n) (q : Fin m) :
    addf (addf (matmul d none a wr (constant ⟨2, ![n, m]⟩ .f32 0x00000000#32))
        (matmul d none x wo (constant ⟨2, ![n, m]⟩ .f32 0x00000000#32))) (broadcastTo ⟨2, ![n, m]⟩ b hb) (ix2 r q)
      = Cert.GraphNet.conv (a : Mat n k) x wr wo (fun j => b (ix2 (0 : Fin 1) j)) (ix2 r q) := by
  rw [conv_apply, addf_apply, addf_apply, Cert.LibDense.kernel_product d hd, Cert.LibDense.kernel_product d hd,
    broadcastTo_1b_ab_apply]
  exact add_right_comm _ _ _

-- A block index y sits in the array where the block's offsets o put it.
theorem rect_emb_at {sig : RefSig} {G : Grid} (w : Window sig G) (t : Fin G.N) {o : Fin w.shape.rank → Nat}
    (h : ∀ a, w.index t a * w.size a = o a) (y : (w.xblock (G.coords t)).Idx) (i : w.shape.Idx)
    (hi : ∀ a, (i a : Nat) = o a + y a) : (w.rect t).emb y = i :=
  funext fun a => Fin.ext ((w.rect_emb_val t y a).trans ((congrArg (· + (y a : Nat)) (h a)).trans (hi a).symm))

-- Row s + p of a two-axis array, coordinate by coordinate: the offsets (s, 0) added to (p, j).
theorem ix2_shift {N B : Nat} (s : Nat) (p : Fin B) (j : Fin k) (hr : s + p.val < N) :
    ∀ a : Fin 2, ((ix2 (⟨s + p.val, hr⟩ : Fin N) j) a : Nat) = (if a.val = 0 then s else 0) + (ix2 p j a : Nat) :=
  Fin.forall_fin_two.2 ⟨rfl, (Nat.zero_add _).symm⟩

-- Row r of an array cut into runs of B rows is row r % B of run r / B: the offsets (t · B, 0) added to (r % B, j).
theorem ix2_divmod {N B : Nat} (hB : 0 < B) (i : (⟨2, ![N, k]⟩ : Shape).Idx) (t : Nat) (ht : t = (i 0).val / B) :
    ∀ a : Fin 2, (i a : Nat)
      = (if a.val = 0 then t * B else 0) + ((ix2 (⟨(i 0).val % B, Nat.mod_lt _ hB⟩ : Fin B) (i 1)) a : Nat) :=
  Fin.forall_fin_two.2 ⟨ht ▸ (Nat.div_add_mod' _ _).symm, (Nat.zero_add _).symm⟩

-- If every index of the array is the image of a block index, the blocks cover the array.
theorem arrAt_eq_of_emb {nD : Nat} {τ : Topo} {sig : RefSig} {Val : EltTy → Type} {Ix : Type} [DecidableEq Ix]
    {Name : Type} [DecidableEq Name] {U : Type} [Idealize.SL.RA.URA U] {Lvl : Type} {Λ₀ : Idealize.SL.Sem.Labels}
    {cfg : Cfg sig Λ₀} {c : Dev nD} (dat : Dat τ Val Ix Name U Lvl cfg c) (w : Fin cfg.W)
    (G : Buf Val ((cfg.win w).arr.view.loc (c.tc : Thread nD τ)))
    (hG : ∀ t, (cfg.win w).flush t = true → dat.flushed w t = ((cfg.win w).blk t).view.read Val G)
    (hcov : ∀ i : ((cfg.win w).arr.view.loc (c.tc : Thread nD τ)).2.ty.Idx, ∃ (t : Fin cfg.N) (y : _), (cfg.win w).flush t = true ∧ ((cfg.win w).blk t).view.emb y = i) :
    dat.arrAt w cfg.N = G :=
  dat.arrAt_eq_of_cover w G hG fun i =>
    let ⟨t, y, hf, e⟩ := hcov i
    ⟨t, hf, e ▸ ((cfg.win w).blk t).view.emb_mem_set y⟩

end Cert.ConvRowBlocks

end
-- ==== Proof.RegConv3.lean ====
import proofs.«419311_j30124900614317_1_alg».proof.Proof.Gen.KernelIdeal.Frame
import proofs.«419311_j30124900614317_1_alg».proof.Proof.ConvRowBlocks

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.ConvRowBlocks

variable (V : (c : Dev nD) → (b : Ref sig .tc) → Buf (Elt Ideal) ((c : Thread nD τ).loc b))

-- The stored block, entry by entry, is the layer of the five blocks read.
theorem out3_5_apply (x0 x1 : Vec Ideal S10000x64 .f32) (x2 x3 : Vec Ideal S64x64 .f32) (x4 : Vec Ideal S1x64 .f32)
    (p : Fin 10000) (q : Fin 64) :
    out3_5 x0 x1 x2 x3 x4 (ix2 p q)
      = Cert.GraphNet.conv (x0 : S10000x64.Idx → EReal) x1 x2 x3 (fun j => x4 (ix2 (0 : Fin 1) j)) (ix2 p q) := by
  unfold out3_5
  rw [View.canon_unit_zero zero_off]
  simp only [View.ld_unit_zero (S := S10000x64) zero_off, View.ld_unit_zero (S := S64x64) zero_off,
    View.ld_unit_zero (S := S1x64) zero_off]
  unfold k3_pay1
  refine (dense_entry _ rfl _ _ _ _ _ _ p q).trans ?_
  simp only [shapeCast_self]
  rfl

theorem offs3 : ∀ t : Fin grid3.N,
    (∀ a, win3_0.index t a * win3_0.size a = if a.val = 0 then t.val * 10000 else 0)
    ∧ (∀ a, win3_1.index t a * win3_1.size a = if a.val = 0 then t.val * 10000 else 0)
    ∧ (∀ a, win3_2.index t a * win3_2.size a = 0) ∧ (∀ a, win3_3.index t a * win3_3.size a = 0)
    ∧ (∀ a, win3_4.index t a * win3_4.size a = 0)
    ∧ ∀ a, win3_5.index t a * win3_5.size a = if a.val = 0 then t.val * 10000 else 0 := by decide +kernel

theorem conv3_value (c : Dev nD) :
    ((dat3 (F := Ideal) V c).arrAt 5 cfg3.N : S100000x64.Idx → EReal)
      = Cert.GraphNet.conv (V c main_v44 : S100000x64.Idx → EReal) (V c main_v31 : S100000x64.Idx → EReal)
          (V c main_arg7 : S64x64.Idx → EReal) (V c main_arg8 : S64x64.Idx → EReal)
          (fun j => (V c main_v45 : S1x64.Idx → EReal) (ix2 (0 : Fin 1) j)) := by
  have e5 (t : Fin cfg3.N) (y : S10000x64.Idx) (i : S100000x64.Idx)
      (hi : ∀ a : Fin 2, (i a : Nat) = (if a.val = 0 then t.val * 10000 else 0) + y a) :
      ((cfg3.win 5).blk t).view.emb y = i := rect_emb_at win3_5 t (offs3 t).2.2.2.2.2 y i hi
  refine arrAt_eq_of_emb (dat3 (F := Ideal) V c) 5 _ (fun t _ => funext fun y => ?_) fun (i : S100000x64.Idx) => ?_
  · obtain ⟨p, q, rfl⟩ : ∃ (p : Fin 10000) (q : Fin 64), y = ix2 p q := ⟨y 0, y 1, eq_ix2 y⟩
    obtain ⟨h0, h1, h2, h3, h4, -⟩ := offs3 t
    have hr : t.val * 10000 + p.val < 100000 := by
      have := Nat.lt_of_lt_of_eq t.isLt N_3; have := p.isLt; omega
    rw [View.read_apply, e5 t _ _ (ix2_shift _ p q hr)]
    show (cfg3.win 5).cut (grid3.coords t) ((dat3 V c).after 5 t) (ix2 p q) = _
    rw [after3_5]
    refine (out3_5_apply _ _ _ _ _ p q).trans ?_
    rw [show (iblk3 V c 2 t : S64x64.Idx → EReal) = V c main_arg7 from
        funext fun z => congrArg (V c main_arg7) (rect_emb_at win3_2 t h2 z z fun _ => (Nat.zero_add _).symm),
      show (iblk3 V c 3 t : S64x64.Idx → EReal) = V c main_arg8 from
        funext fun z => congrArg (V c main_arg8) (rect_emb_at win3_3 t h3 z z fun _ => (Nat.zero_add _).symm),
      show (iblk3 V c 4 t : S1x64.Idx → EReal) = V c main_v45 from
        funext fun z => congrArg (V c main_v45) (rect_emb_at win3_4 t h4 z z fun _ => (Nat.zero_add _).symm)]
    exact conv_of_rows _ _ _ _ _ _ _ p ⟨_, hr⟩ q
      (fun j => congrArg (V c main_v44) (rect_emb_at win3_0 t h0 _ _ (ix2_shift _ p j hr)))
      (fun j => congrArg (V c main_v31) (rect_emb_at win3_1 t h1 _ _ (ix2_shift _ p j hr)))
  · have hi : (i 0).val < 100000 := (i 0).isLt
    obtain ⟨t, ht⟩ : ∃ t : Fin cfg3.N, t.val = (i 0).val / 10000 :=
      ⟨⟨_, Nat.lt_of_lt_of_eq (by omega) N_3.symm⟩, rfl⟩
    exact ⟨t, _, flush3_5 t, e5 t _ i (ix2_divmod (by decide) i _ ht)⟩

end Cert.KernelIdeal.Regions

end
-- ==== Proof.RegConv6.lean ====
import proofs.«419311_j30124900614317_1_alg».proof.Proof.Gen.KernelIdeal.Frame
import proofs.«419311_j30124900614317_1_alg».proof.Proof.RegConv3

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.ConvRowBlocks

variable (V : (c : Dev nD) → (b : Ref sig .tc) → Buf (Elt Ideal) ((c : Thread nD τ).loc b))

theorem offs6 : ∀ t : Fin grid6.N,
    (∀ a, win6_0.index t a * win6_0.size a = if a.val = 0 then t.val * 10000 else 0)
    ∧ (∀ a, win6_1.index t a * win6_1.size a = if a.val = 0 then t.val * 10000 else 0)
    ∧ (∀ a, win6_2.index t a * win6_2.size a = 0) ∧ (∀ a, win6_3.index t a * win6_3.size a = 0)
    ∧ (∀ a, win6_4.index t a * win6_4.size a = 0)
    ∧ ∀ a, win6_5.index t a * win6_5.size a = if a.val = 0 then t.val * 10000 else 0 := by decide +kernel

theorem conv6_value (c : Dev nD) :
    ((dat6 (F := Ideal) V c).arrAt 5 cfg6.N : S100000x64.Idx → EReal)
      = Cert.GraphNet.conv (V c main_v72 : S100000x64.Idx → EReal) (V c main_v59 : S100000x64.Idx → EReal)
          (V c main_arg10 : S64x64.Idx → EReal) (V c main_arg11 : S64x64.Idx → EReal)
          (fun j => (V c main_v73 : S1x64.Idx → EReal) (ix2 (0 : Fin 1) j)) := by
  have e5 (t : Fin cfg6.N) (y : S10000x64.Idx) (i : S100000x64.Idx)
      (hi : ∀ a : Fin 2, (i a : Nat) = (if a.val = 0 then t.val * 10000 else 0) + y a) :
      ((cfg6.win 5).blk t).view.emb y = i := rect_emb_at win6_5 t (offs6 t).2.2.2.2.2 y i hi
  refine arrAt_eq_of_emb (dat6 (F := Ideal) V c) 5 _ (fun t _ => funext fun y => ?_) fun (i : S100000x64.Idx) => ?_
  · obtain ⟨p, q, rfl⟩ : ∃ (p : Fin 10000) (q : Fin 64), y = ix2 p q := ⟨y 0, y 1, eq_ix2 y⟩
    obtain ⟨h0, h1, h2, h3, h4, -⟩ := offs6 t
    have hr : t.val * 10000 + p.val < 100000 := by
      have := Nat.lt_of_lt_of_eq t.isLt N_6; have := p.isLt; omega
    rw [View.read_apply, e5 t _ _ (ix2_shift _ p q hr)]
    show (cfg6.win 5).cut (grid6.coords t) ((dat6 V c).after 5 t) (ix2 p q) = _
    rw [after6_5]
    refine (out3_5_apply _ _ _ _ _ p q).trans ?_
    rw [show (iblk6 V c 2 t : S64x64.Idx → EReal) = V c main_arg10 from
        funext fun z => congrArg (V c main_arg10) (rect_emb_at win6_2 t h2 z z fun _ => (Nat.zero_add _).symm),
      show (iblk6 V c 3 t : S64x64.Idx → EReal) = V c main_arg11 from
        funext fun z => congrArg (V c main_arg11) (rect_emb_at win6_3 t h3 z z fun _ => (Nat.zero_add _).symm),
      show (iblk6 V c 4 t : S1x64.Idx → EReal) = V c main_v73 from
        funext fun z => congrArg (V c main_v73) (rect_emb_at win6_4 t h4 z z fun _ => (Nat.zero_add _).symm)]
    exact conv_of_rows _ _ _ _ _ _ _ p ⟨_, hr⟩ q
      (fun j => congrArg (V c main_v72) (rect_emb_at win6_0 t h0 _ _ (ix2_shift _ p j hr)))
      (fun j => congrArg (V c main_v59) (rect_emb_at win6_1 t h1 _ _ (ix2_shift _ p j hr)))
  · have hi : (i 0).val < 100000 := (i 0).isLt
    obtain ⟨t, ht⟩ : ∃ t : Fin cfg6.N, t.val = (i 0).val / 10000 :=
      ⟨⟨_, Nat.lt_of_lt_of_eq (by omega) N_6.symm⟩, rfl⟩
    exact ⟨t, _, flush6_5 t, e5 t _ i (ix2_divmod (by decide) i _ ht)⟩

end Cert.KernelIdeal.Regions

end
-- ==== Proof.LibBlockSum.lean ====
import Mathlib.Logic.Equiv.Fin.Basic
import Mathlib.Data.Fintype.BigOperators
import Mathlib.Algebra.BigOperators.Group.Finset.Defs

namespace Cert.Lib

-- A sum over T·L terms, taken T blocks of L at a time.
theorem sum_blocks {M : Type*} [AddCommMonoid M] {T L N : ℕ} (hN : T * L = N) (g : Fin N → M)
    (hb : ∀ (t : Fin T) (l : Fin L), t.val * L + l.val < N) :
    ∑ t : Fin T, ∑ l : Fin L, g ⟨t.val * L + l.val, hb t l⟩ = ∑ n : Fin N, g n := by
  subst hN
  rw [← (finProdFinEquiv (m := T) (n := L)).sum_comp g, Fintype.sum_prod_type]
  refine Finset.sum_congr rfl fun t _ => Finset.sum_congr rfl fun l _ => congrArg g (Fin.ext ?_)
  show t.val * L + l.val = l.val + L * t.val
  rw [Nat.mul_comm, Nat.add_comm]

end Cert.Lib
-- ==== Proof.LibColProducts.lean ====
import Idealize.ShloMosaic.PureOps.Ideal.Laws
import Idealize.ShloMosaic.Lib.ValueIdx

noncomputable section

open scoped BigOperators

namespace Cert.Lib.ColProducts

open Idealize.ShloMosaic Idealize.ShloMosaic.ValueIdx

variable {n K c : Nat} {φ₁ φ₂ : FTy}

-- Contracting the first axis of both operands gives (lᵀ · w)(r, c') = ∑ q, l (q, r) · w (q, c').
theorem matmul_zero_ix2 (d : DotDims ⟨2, ![K, n]⟩ ⟨2, ![K, c]⟩ ⟨2, ![n, c]⟩)
    (hd : (d.lhsContracting, d.rhsContracting, d.lhsNonContracting, d.rhsNonContracting, d.lhsBatch, d.rhsBatch)
      = ([0], [0], [1], [1], [], []))
    (prec : Option ContractPrecision) (l : FVec Ideal ⟨2, ![K, n]⟩ φ₁) (w : FVec Ideal ⟨2, ![K, c]⟩ φ₂) (r : Fin n) (c' : Fin c) :
    matmul (F := Ideal) d prec l w (constant ⟨2, ![n, c]⟩ .f32 0x00000000#32) (ix2 r c')
      = ∑ q : Fin K, l (ix2 q r) * w (ix2 q c') := by
  obtain ⟨lc, rc, ln, rn, lb, rb, wf⟩ := d
  simp only [Prod.mk.injEq] at hd
  obtain ⟨rfl, rfl, rfl, rfl, rfl, rfl⟩ := hd
  refine (Ideal.matmul_constant_zero_apply _ prec l w _).trans ?_
  rw [← Equiv.sum_comp (contrEquiv1 _ K rfl rfl).symm]
  refine Finset.sum_congr rfl fun q _ => ?_
  have hk := contrEquiv1_symm_val (⟨[0], [0], [1], [1], [], [], wf⟩ : DotDims ⟨2, ![K, n]⟩ ⟨2, ![K, c]⟩ ⟨2, ![n, c]⟩) K rfl rfl q
  congr 2 <;> funext a <;> apply Fin.ext <;> match a with
    | ⟨0, _⟩ => simp [DotDims.lhsIdx, DotDims.rhsIdx]; exact hk
    | ⟨1, _⟩ => simp [DotDims.lhsIdx, DotDims.rhsIdx]; rfl

end Cert.Lib.ColProducts

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

-- A vector laid out as a column: entry (i, 0) is entry i.
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

-- A column copied along the rows: entry (p, c) is the column's entry p.
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

-- The sum over the rows, column by column.
theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) := by
  refine (Ideal.multiReduction_add_single src _ h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

end Cert.Keepdims

end
-- ==== Proof.RegPool7Pay.lean ====
import proofs.«419311_j30124900614317_1_alg».proof.Proof.Gen.KernelIdeal.Skeleton
import proofs.«419311_j30124900614317_1_alg».proof.Proof.Spec
import proofs.«419311_j30124900614317_1_alg».proof.Proof.LibColProducts
import proofs.«419311_j30124900614317_1_alg».proof.Proof.LibKeepdims
import Idealize.ShloMosaic.Lib.StableHlo.Predicate
import Idealize.ShloMosaic.Lib.ValueLayout
import Idealize.ShloMosaic.Lib.KernelVsHost

noncomputable section

open scoped BigOperators

namespace Cert.KernelIdeal.Regions.Pool

open Idealize.ShloMosaic Idealize.ShloMosaic.ValueIdx
open Cert.KernelIdeal Cert.KernelIdeal.Gen
open Cert.GraphNet (poolSum poolCnt rowOf)

-- The equality test against the word of g < 2³¹, widened and read signed, is 1 when x read signed is g and 0 otherwise.
theorem hot_word (x : BitVec 32) (g : ℕ) (hg : g < 2 ^ 31) :
    ((((IntOp.cmpi .eq x (BitVec.ofNat 32 g)).setWidth 32).toInt : ℝ) : EReal)
      = if x.toInt = (g : ℤ) then (1 : EReal) else 0 := by
  have hi : x.toInt = (g : ℤ) ↔ x = BitVec.ofNat 32 g := by
    rw [← StableHlo.Predicate.toInt_ofNat_small g hg]; exact BitVec.toInt_inj
  rw [toInt_setWidth_bit]
  by_cases h : x = BitVec.ofNat 32 g
  · rw [if_pos (hi.mpr h), StableHlo.Predicate.cmpi_eq_iff.mpr h]; simp
  · rw [if_neg (mt hi.mp h), eq_zero_of_ne_one (mt StableHlo.Predicate.cmpi_eq_iff.mp h)]; simp

abbrev col {n : ℕ} (b : (⟨2, ![n, 1]⟩ : Shape).Idx → BitVec 32) (r : Fin n) : BitVec 32 := b (ix2 r (0 : Fin 1))

-- The one-hot matrix at (r, g): 1 when node r's graph word, read signed, is g, else 0.
theorem hot_apply (b : Vec Ideal S1000x1 .i32) (r : Fin 1000) (g : Fin 1024) :
    k7_pay3 (F := Ideal) b (ix2 r g) = if (col b r).toInt = (g.val : ℤ) then (1 : EReal) else 0 := by
  have e6 : broadcastTo S1000x1024 (shapeCast S1000x1 b shapeCasts_S1000x1_S1000x1) broadcasts_S1000x1_S1000x1024 (ix2 r g)
      = col b r :=
    (Cert.Keepdims.broadcastTo_a1_ab_apply _ broadcasts_S1000x1_S1000x1024 r g).trans
      (congrFun (shapeCast_self b shapeCasts_S1000x1_S1000x1) _)
  have e5 : iota .tc S1000x1024 32 [1] iota_S1000x1024_d1_w32 (ix2 r g) = BitVec.ofNat 32 g.val :=
    congrArg (BitVec.ofNat 32) ((congrArg (· + g.val) (Nat.zero_mul 1024)).trans (Nat.zero_add _))
  unfold k7_pay3
  show ((((IntOp.cmpi .eq
      (broadcastTo S1000x1024 (shapeCast S1000x1 b shapeCasts_S1000x1_S1000x1) broadcasts_S1000x1_S1000x1024 (ix2 r g))
      (iota .tc S1000x1024 32 [1] iota_S1000x1024_d1_w32 (ix2 r g))).setWidth 32).toInt : ℝ) : EReal) = _
  rw [e6, e5]
  exact hot_word _ g.val (lt_trans g.isLt (by norm_num))

theorem pay1_eq : (k7_pay1 (F := Ideal) : S1024x64.Idx → EReal) = 0 := funext fun _ => Ideal.ofBits_zero_f32

theorem pay2_eq : (k7_pay2 (F := Ideal) : S1x1024.Idx → EReal) = 0 := funext fun _ => Ideal.ofBits_zero_f32

-- A point adds to the sums the transposed one-hot matrix times the rows: the block's per-graph sums.
theorem pay4_eq (b : Vec Ideal S1000x1 .i32) (h : Vec Ideal S1000x64 .f32) (acc : Vec Ideal S1024x64 .f32) :
    (k7_pay4 (F := Ideal) b h acc : S1024x64.Idx → EReal) = acc + poolSum h (col b) := by
  funext i
  obtain ⟨g, c, rfl⟩ : ∃ (g : Fin 1024) (c : Fin 64), i = ix2 g c := ⟨i 0, i 1, eq_ix2 i⟩
  unfold k7_pay4
  refine (addf_apply _ _ _).trans (congrArg₂ (· + ·) (congrFun (shapeCast_self acc _) _) ?_)
  refine (Cert.Lib.ColProducts.matmul_zero_ix2 _ rfl none _ _ g c).trans (Finset.sum_congr rfl fun r _ => ?_)
  show k7_pay3 (F := Ideal) b (ix2 r g) * shapeCast S1000x64 h shapeCasts_S1000x64_S1000x64 (ix2 r c) = _
  rw [hot_apply b r g, shapeCast_self, ite_mul, one_mul, zero_mul]

-- and to the counts the one-hot matrix's column sums: the block's per-graph counts.
theorem pay5_eq (b : Vec Ideal S1000x1 .i32) (acc : Vec Ideal S1x1024 .f32) :
    (k7_pay5 (F := Ideal) b acc : S1x1024.Idx → EReal) = acc + rowOf (poolCnt (col b)) := by
  funext i
  obtain ⟨u, g, rfl⟩ : ∃ (u : Fin 1) (g : Fin 1024), i = ix2 u g := ⟨i 0, i 1, eq_ix2 i⟩
  obtain rfl : u = 0 := Subsingleton.elim _ _
  unfold k7_pay5
  refine (addf_apply _ _ _).trans (congrArg₂ (· + ·) (congrFun (shapeCast_self acc _) _) ?_)
  refine (shapeCast_a_1a_apply _ shapeCasts_S1024_S1x1024 (0 : Fin 1) g).trans ?_
  refine (Cert.Keepdims.add_cols_f32 (k7_pay3 (F := Ideal) b) reduces_S1000x1024_S1024 (.inl rfl) rfl g).trans ?_
  exact Finset.sum_congr rfl fun r _ => hot_apply b r g

end Cert.KernelIdeal.Regions.Pool

end
-- ==== Proof.RegPool7.lean ====
import proofs.«419311_j30124900614317_1_alg».proof.Proof.Gen.KernelIdeal.Frame
import proofs.«419311_j30124900614317_1_alg».proof.Proof.LibBlockSum
import proofs.«419311_j30124900614317_1_alg».proof.Proof.RegPool7Pay

noncomputable section

open scoped BigOperators

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.GraphNet (poolSum poolCnt rowOf)

namespace Pool

theorem hz : (![0, 0] : Fin 2 → Nat) = fun _ => 0 := funext fun a => by fin_cases a <;> rfl

section Pieces
variable {F : FTy → Type} [FloatOps F] (c : Dev nD) (i : grid7.Coords) (a1 : Memref sig .tc .vmem S1000x64 .f32) (h1 : a1.IsWhole)
  (a2 : Memref sig .tc .vmem S1000x1 .i32) (h2 : a2.IsWhole) (a3 : Memref sig .tc .vmem S1024x64 .f32) (h3 : a3.IsWhole)
  (a4 : Memref sig .tc .vmem S1x1024 .f32) (h4 : a4.IsWhole) (x0 : Vec F S1000x64 .f32) (x1 : Vec F S1000x1 .i32)

-- A later point leaves in each output what the point before left plus the block's share.
theorem later (hc : ¬cond7_0 i) (xo2 : Vec F S1024x64 .f32) (xo3 : Vec F S1x1024 .f32) :
    (out7_B_2 c i a1 h1 a2 h2 a3 h3 a4 h4 hc x0 x1 xo2 xo3, out7_B_3 c i a1 h1 a2 h2 a3 h3 a4 h4 hc x0 x1 xo2 xo3)
      = (k7_pay4 x1 x0 xo2, k7_pay5 x1 xo3) := by
  unfold out7_B_2 out7_B_3
  rw [View.read_writes_eq_canon _ _ _ (cover7_B_2 c i a1 h1 a2 h2 a3 h3 a4 h4 hc x0 x1 xo2 xo3),
    View.read_writes_eq_canon _ _ _ (cover7_B_3 c i a1 h1 a2 h2 a3 h3 a4 h4 hc x0 x1 xo2 xo3)]
  unfold kernelRun7_B
  dsimp only
  sl_unfold_words
  rw [View.canon_unit_zero (S := S1024x64) hz, View.canon_unit_zero (S := S1x1024) hz]
  simp only [View.readAt_eq_ld, h1.read_unread, h2.read_unread, h3.read_unread, h4.read_unread,
    View.ld_unit_zero (S := S1000x64) hz, View.ld_unit_zero (S := S1000x1) hz, View.ld_unit_zero (S := S1024x64) hz,
    View.ld_unit_zero (S := S1x1024) hz]

-- The first point starts both outputs from zero and adds the block's share.
theorem first (hc : cond7_0 i) :
    (out7_A_2 c i a1 h1 a2 h2 a3 h3 a4 h4 hc x0 x1, out7_A_3 c i a1 h1 a2 h2 a3 h3 a4 h4 hc x0 x1)
      = (k7_pay4 x1 x0 (k7_pay1 (F := F)), k7_pay5 x1 (k7_pay2 (F := F))) := by
  unfold out7_A_2 out7_A_3
  rw [View.read_writes_eq_canon _ _ _ (cover7_A_2 c i a1 h1 a2 h2 a3 h3 a4 h4 hc x0 x1),
    View.read_writes_eq_canon _ _ _ (cover7_A_3 c i a1 h1 a2 h2 a3 h3 a4 h4 hc x0 x1)]
  unfold kernelRun7_A
  dsimp only
  sl_unfold_words
  rw [View.canon_cons_unit_zero (S := S1024x64) hz, View.canon_cons_unit_zero (S := S1x1024) hz]
  simp only [View.readAt_eq_ld, h1.read_unread, h2.read_unread,
    View.readCov_unit_zero (S := S1024x64) _ hz, View.readCov_unit_zero (S := S1x1024) _ hz,
    View.ld_unit_zero (S := S1000x64) hz, View.ld_unit_zero (S := S1000x1) hz, View.ld_unit_zero (S := S1024x64) hz,
    View.ld_unit_zero (S := S1x1024) hz]

end Pieces

-- Point t reads block (t, 0) of both inputs; both outputs stay at block (0, 0).
theorem idx_facts : ∀ t : Fin cfg7.N, (win7_0.index t (0 : Fin 2) = t.val ∧ win7_0.index t (1 : Fin 2) = 0)
    ∧ (win7_1.index t (0 : Fin 2) = t.val ∧ win7_1.index t (1 : Fin 2) = 0)
    ∧ (∀ a, win7_2.index t a = 0) ∧ ∀ a, win7_3.index t a = 0 :=
  (by decide +kernel : ∀ t : Fin grid7.N, _)

-- A quantity that starts at M 0 and gains M n at point n holds the sum of M 0 … M n after point n.
theorem fold_sum {β : Type*} [AddCommMonoid β] {N : ℕ} (f M : (n : ℕ) → n < N → β) (h0 : ∀ h, f 0 h = M 0 h)
    (hs : ∀ n (h : n + 1 < N), f (n + 1) h = f n (Nat.lt_of_succ_lt h) + M (n + 1) h) :
    ∀ n h, f n h = ∑ k : Fin (n + 1), M k.val (Nat.lt_of_le_of_lt (Nat.le_of_lt_succ k.isLt) h)
  | 0, h => by rw [Fin.sum_univ_one]; exact h0 h
  | n + 1, h => by
    rw [Fin.sum_univ_castSucc]
    exact (hs n h).trans (congrArg (· + M (n + 1) h) (fold_sum f M h0 hs n _))

section Blocks
variable (V : (c : Dev nD) → (b : Ref sig .tc) → Buf (Elt Ideal) ((c : Thread nD τ).loc b)) (c : Dev nD)

abbrev Outs : Type := (S1024x64.Idx → EReal) × (S1x1024.Idx → EReal)

-- The per-graph sums and counts of some rows with their graph words.
abbrev pooled {n : ℕ} (h : Cert.LibDense.Mat n 64) (b : Fin n → BitVec 32) : Outs := (poolSum h b, rowOf (poolCnt b))

theorem pooled_fst {n : ℕ} (h : Cert.LibDense.Mat n 64) (b : Fin n → BitVec 32) (i : S1024x64.Idx) :
    poolSum h b i = ∑ r : Fin n, if (b r).toInt = ((i 0).val : ℤ) then h (ix2 r (i 1)) else 0 := rfl

theorem pooled_snd {n : ℕ} (b : Fin n → BitVec 32) (i : S1x1024.Idx) :
    rowOf (poolCnt (G := 1024) b) i = ∑ r : Fin n, if (b r).toInt = ((i 1).val : ℤ) then (1 : EReal) else 0 := rfl

abbrev hblk (t : Fin cfg7.N) : Vec Ideal S1000x64 .f32 := iblk7 V c 0 t
abbrev bblk (t : Fin cfg7.N) : Vec Ideal S1000x1 .i32 := iblk7 V c 1 t
abbrev harr : S100000x64.Idx → EReal := V c main_v74
abbrev barr : Fin 100000 → BitVec 32 := fun r => (V c main_v75 : IVec S100000x1 32) (ix2 r (0 : Fin 1))

theorem blocks_lt (t : Fin 100) (l : Fin 1000) : t.val * 1000 + l.val < 100000 := by
  have := t.isLt; have := l.isLt; omega

-- Row r of point t's block, of either input, is row 1000·t + r of the array.
theorem hblk_apply (t : Fin cfg7.N) (r : Fin 1000) (j : Fin 64) (hb : t.val * 1000 + r.val < 100000) :
    hblk V c t (ix2 r j) = harr V c (ix2 ⟨t.val * 1000 + r.val, hb⟩ j) := by
  obtain ⟨⟨e0, e1⟩, -⟩ := idx_facts t
  refine congrArg (V c main_v74) (funext fun a => Fin.ext ?_)
  match a with
  | ⟨0, _⟩ => exact (win7_0.rect_emb_val t _ 0).trans (by rw [e0]; rfl)
  | ⟨1, _⟩ => exact win7_0.rect_emb_val_of_index_zero t 1 e1 _

theorem bblk_apply (t : Fin cfg7.N) (r : Fin 1000) (hb : t.val * 1000 + r.val < 100000) :
    col (bblk V c t) r = barr V c ⟨t.val * 1000 + r.val, hb⟩ := by
  obtain ⟨-, ⟨e0, e1⟩, -⟩ := idx_facts t
  refine congrArg (V c main_v75) (funext fun a => Fin.ext ?_)
  match a with
  | ⟨0, _⟩ => exact (win7_1.rect_emb_val t _ 0).trans (by rw [e0]; rfl)
  | ⟨1, _⟩ => exact win7_1.rect_emb_val_of_index_zero t 1 e1 _

-- Block t's share of both outputs, and what they are to hold in the end.
abbrev share (t : Fin cfg7.N) : Outs := pooled (hblk V c t) (col (bblk V c t))
abbrev sumsOf : S1024x64.Idx → EReal := poolSum (harr V c) (barr V c)
abbrev cntsOf : S1x1024.Idx → EReal := rowOf (poolCnt (G := 1024) (barr V c))

theorem outs_first (t : Fin cfg7.N) (h0 : t.val % 100 = 0) : (outsAt7 V c t.val t.isLt : Outs) = share V c t := by
  rw [outsAt7_A V c t h0, first, pay4_eq, pay5_eq, pay1_eq, pay2_eq, zero_add, zero_add]

theorem outs_later (t : Fin cfg7.N) (h0 : ¬t.val % 100 = 0) :
    (outsAt7 V c t.val t.isLt : Outs)
      = (outsAt7 V c (t.val - 1) (Nat.lt_of_le_of_lt (Nat.sub_le _ _) t.isLt) : Outs) + share V c t := by
  rw [outsAt7_B V c t h0, later, pay4_eq, pay5_eq]
  rfl

-- The hundred shares make up the sums and counts over all 100000 nodes: node 1000·t + l is node l of block t.
theorem total (ht : ∀ t : Fin 100, t.val < cfg7.N) : ∑ t : Fin 100, share V c ⟨t.val, ht t⟩ = (sumsOf V c, cntsOf V c) := by
  refine Prod.ext ?_ ?_ <;> simp only [Prod.fst_sum, Prod.snd_sum] <;> funext i <;> simp only [Finset.sum_apply, pooled_fst, pooled_snd]
  · refine Eq.trans (Finset.sum_congr rfl fun t _ => Finset.sum_congr rfl fun l _ => ?_) (Cert.Lib.sum_blocks (T := 100) (L := 1000) rfl
      (fun n : Fin 100000 => if (barr V c n).toInt = ((i 0).val : ℤ) then harr V c (ix2 n (i 1)) else 0) blocks_lt)
    exact congrArg₂ (fun (x : BitVec 32) (y : EReal) => if x.toInt = ((i 0).val : ℤ) then y else 0)
      (bblk_apply V c ⟨t.val, ht t⟩ l (blocks_lt t l)) (hblk_apply V c ⟨t.val, ht t⟩ l (i 1) (blocks_lt t l))
  · refine Eq.trans (Finset.sum_congr rfl fun t _ => Finset.sum_congr rfl fun l _ => ?_) (Cert.Lib.sum_blocks (T := 100) (L := 1000) rfl
      (fun n : Fin 100000 => if (barr V c n).toInt = ((i 1).val : ℤ) then (1 : EReal) else 0) blocks_lt)
    exact congrArg (fun x : BitVec 32 => if x.toInt = ((i 1).val : ℤ) then (1 : EReal) else 0) (bblk_apply V c ⟨t.val, ht t⟩ l (blocks_lt t l))

-- At the last point the outputs hold the sums and counts over all nodes.
theorem last (t : Fin cfg7.N) (h : t.val % 100 = 99) : (outsAt7 V c t.val t.isLt : Outs) = (sumsOf V c, cntsOf V c) := by
  have hN : cfg7.N = 100 := N_7
  obtain ⟨n, hn⟩ := t
  obtain rfl : n = 99 := by dsimp only at h; omega
  refine (fold_sum (fun n hn => (outsAt7 V c n hn : Outs)) (fun n hn => share V c ⟨n, hn⟩) (fun h => outs_first V c ⟨0, h⟩ rfl)
    (fun n h => outs_later V c ⟨n + 1, h⟩ (by show ¬(n + 1) % 100 = 0; omega)) 99 hn).trans (total V c _)

theorem last_point : ∃ t : Fin cfg7.N, t.val % 100 = 99 :=
  (by decide +kernel : ∃ t : Fin grid7.N, t.val % 100 = 99)

-- Either output's block is its whole array, so the last point's block covers it.
theorem emb2 (t : Fin cfg7.N) (y : S1024x64.Idx) : ((cfg7.win 2).blk t).view.emb y = y :=
  funext fun a => Fin.ext (win7_2.rect_emb_val_of_index_zero t a ((idx_facts t).2.2.1 a) y)

theorem emb3 (t : Fin cfg7.N) (y : S1x1024.Idx) : ((cfg7.win 3).blk t).view.emb y = y :=
  funext fun a => Fin.ext (win7_3.rect_emb_val_of_index_zero t a ((idx_facts t).2.2.2 a) y)

theorem whole2 (t : Fin cfg7.N) (f : S1024x64.Idx → EReal) :
    (cfg7.win 2).cut (grid7.coords t) f = ((cfg7.win 2).blk t).view.read (Elt Ideal) f :=
  funext fun y => (congrArg _ (emb2 t y)).symm

theorem whole3 (t : Fin cfg7.N) (f : S1x1024.Idx → EReal) :
    (cfg7.win 3).cut (grid7.coords t) f = ((cfg7.win 3).blk t).view.read (Elt Ideal) f :=
  funext fun y => (congrArg _ (emb3 t y)).symm

theorem flushed2 (t : Fin cfg7.N) (hf : (cfg7.win 2).flush t = true) :
    (dat7 V c).flushed 2 t = ((cfg7.win 2).blk t).view.read (Elt Ideal) (sumsOf V c) := by
  show (cfg7.win 2).cut (grid7.coords t) ((dat7 V c).after 2 t) = _
  rw [after7_2, last V c t ((flush7_2 t).mp hf)]
  dsimp only
  exact whole2 t _

theorem flushed3 (t : Fin cfg7.N) (hf : (cfg7.win 3).flush t = true) :
    (dat7 V c).flushed 3 t = ((cfg7.win 3).blk t).view.read (Elt Ideal) (cntsOf V c) := by
  show (cfg7.win 3).cut (grid7.coords t) ((dat7 V c).after 3 t) = _
  rw [after7_3, last V c t ((flush7_3 t).mp hf)]
  dsimp only
  exact whole3 t _

theorem cover2 (i : S1024x64.Idx) : ∃ t : Fin cfg7.N, (cfg7.win 2).flush t = true ∧ i ∈ ((cfg7.win 2).blk t).view.set :=
  last_point.elim fun t h => ⟨t, (flush7_2 t).mpr h, (congrArg (· ∈ _) (emb2 t i)).mp (View.emb_mem_set _ i)⟩

theorem cover3 (i : S1x1024.Idx) : ∃ t : Fin cfg7.N, (cfg7.win 3).flush t = true ∧ i ∈ ((cfg7.win 3).blk t).view.set :=
  last_point.elim fun t h => ⟨t, (flush7_3 t).mpr h, (congrArg (· ∈ _) (emb3 t i)).mp (View.emb_mem_set _ i)⟩

end Blocks

end Pool

variable (V : (c : Dev nD) → (b : Ref sig .tc) → Buf (Elt Ideal) ((c : Thread nD τ).loc b))

theorem pool7_sum (c : Dev nD) :
    ((dat7 (F := Ideal) V c).arrAt 2 cfg7.N : S1024x64.Idx → EReal)
      = Cert.GraphNet.poolSum (V c main_v74 : S100000x64.Idx → EReal)
          (fun r => (V c main_v75 : IVec S100000x1 32) (ix2 r (0 : Fin 1))) :=
  (dat7 (F := Ideal) V c).arrAt_eq_of_cover 2 (Pool.sumsOf V c) (Pool.flushed2 V c) Pool.cover2

theorem pool7_cnt (c : Dev nD) :
    ((dat7 (F := Ideal) V c).arrAt 3 cfg7.N : S1x1024.Idx → EReal)
      = Cert.GraphNet.rowOf (Cert.GraphNet.poolCnt (G := 1024)
          (fun r => (V c main_v75 : IVec S100000x1 32) (ix2 r (0 : Fin 1)))) :=
  (dat7 (F := Ideal) V c).arrAt_eq_of_cover 3 (Pool.cntsOf V c) (Pool.flushed3 V c) Pool.cover3

end Cert.KernelIdeal.Regions

end
-- ==== Proof.ColumnSums.lean ====
import proofs.«419311_j30124900614317_1_alg».proof.Proof.Gen.KernelIdeal.Skeleton
import proofs.«419311_j30124900614317_1_alg».proof.Proof.Spec
import proofs.«419311_j30124900614317_1_alg».proof.Proof.LibKeepdims
import proofs.«419311_j30124900614317_1_alg».proof.Proof.LibBlockSum
import Mathlib.Algebra.BigOperators.Fin

noncomputable section

namespace Cert.KernelIdeal.Regions.ColumnSums

open Idealize.ShloMosaic Idealize.ShloMosaic.ValueIdx
open Cert.KernelIdeal Cert.KernelIdeal.Gen
open Cert.GraphNet (rowOf colsum colsumsq)

theorem zero_offsets : (![0, 0] : Fin 2 → Nat) = fun _ => 0 := funext fun a => by fin_cases a <;> rfl

theorem reset_apply (i : S1x64.Idx) : k1_pay1 (F := Ideal) i = 0 := by
  unfold k1_pay1
  exact Ideal.ofBits_zero_f32

theorem reset_sumsq_apply (i : S1x64.Idx) : k1_pay2 (F := Ideal) i = 0 := reset_apply i

theorem block_eq (x : Vec Ideal S10000x64 .f32) : k1_pay3 (F := Ideal) x = x := by
  unfold k1_pay3
  exact shapeCast_self x _

theorem step_sum_apply (x : Vec Ideal S10000x64 .f32) (acc : Vec Ideal S1x64 .f32) (u : Fin 1) (j : Fin 64) :
    k1_pay4 (F := Ideal) x acc (ix2 u j) = acc (ix2 u j) + ∑ r : Fin 10000, x (ix2 r j) := by
  unfold k1_pay4
  rw [block_eq]
  refine (addf_apply _ _ (ix2 u j)).trans ?_
  refine congrArg₂ (· + ·) (congrFun (shapeCast_self acc _) (ix2 u j)) ?_
  refine (shapeCast_a_1a_apply _ _ u j).trans ?_
  exact Cert.Keepdims.add_cols_f32 x _ _ _ j

theorem step_sumsq_apply (x : Vec Ideal S10000x64 .f32) (acc : Vec Ideal S1x64 .f32) (u : Fin 1) (j : Fin 64) :
    k1_pay5 (F := Ideal) x acc (ix2 u j) = acc (ix2 u j) + ∑ r : Fin 10000, x (ix2 r j) * x (ix2 r j) := by
  unfold k1_pay5
  rw [block_eq]
  refine (addf_apply _ _ (ix2 u j)).trans ?_
  refine congrArg₂ (· + ·) (congrFun (shapeCast_self acc _) (ix2 u j)) ?_
  refine (shapeCast_a_1a_apply _ _ u j).trans ?_
  exact Cert.Keepdims.add_cols_f32 (mulf x x) _ _ _ j

theorem colsumsq_eq (x : S100000x64.Idx → EReal) : colsumsq x = colsum fun i => x i * x i := rfl

-- A row holding block 0's column sums that gains block n's at point n holds after ten points those of the array the blocks tile.
theorem fold_last {N : ℕ} (hN : N = 10) (o : (n : ℕ) → n < N → S1x64.Idx → EReal) (y : Fin N → S10000x64.Idx → EReal)
    (z : S100000x64.Idx → EReal)
    (h0 : ∀ hn (u : Fin 1) (j : Fin 64), o 0 hn (ix2 u j) = ∑ r : Fin 10000, y ⟨0, hn⟩ (ix2 r j))
    (hs : ∀ n hn (u : Fin 1) (j : Fin 64),
      o (n + 1) hn (ix2 u j) = o n (Nat.lt_of_succ_lt hn) (ix2 u j) + ∑ r : Fin 10000, y ⟨n + 1, hn⟩ (ix2 r j))
    (hy : ∀ (t : Fin N) (r : Fin 10000) (j : Fin 64) (h : t.val * 10000 + r.val < 100000),
      y t (ix2 r j) = z (ix2 ⟨t.val * 10000 + r.val, h⟩ j))
    (h9 : 9 < N) : o 9 h9 = rowOf (colsum z) := by
  subst hN
  have key : ∀ n (hn : n < 10) (u : Fin 1) (j : Fin 64), o n hn (ix2 u j)
      = ∑ k : Fin (n + 1), ∑ r : Fin 10000, z (ix2 ⟨k.val * 10000 + r.val, by have := k.isLt; have := r.isLt; omega⟩ j) := by
    intro n
    induction n with
    | zero =>
      intro hn u j
      rw [Fin.sum_univ_one, h0 hn u j]
      exact Finset.sum_congr rfl fun r _ => hy _ r j _
    | succ n ih =>
      intro hn u j
      rw [Fin.sum_univ_castSucc, hs n hn u j, ih (Nat.lt_of_succ_lt hn) u j]
      exact congrArg₂ (· + ·) rfl (Finset.sum_congr rfl fun r _ => hy _ r j _)
  funext i
  obtain ⟨u, j, rfl⟩ : ∃ (u : Fin 1) (j : Fin 64), i = ix2 u j := ⟨i 0, i 1, eq_ix2 i⟩
  exact (key 9 h9 u j).trans (Cert.Lib.sum_blocks (T := 10) (L := 10000) (N := 100000) rfl (fun n => z (ix2 n j))
    fun t l => by have := t.isLt; have := l.isLt; omega)

-- Two rows reset at the first of ten points and stepped at each later one end as the array's column sums and sums of squares.
theorem rows_last {N : ℕ} (hN : N = 10) (o : (n : ℕ) → n < N → Vec Ideal S1x64 .f32 × Vec Ideal S1x64 .f32)
    (b : Fin N → Vec Ideal S10000x64 .f32) (x : S100000x64.Idx → EReal)
    (hA : ∀ t : Fin N, t.val % 10 = 0 → o t.val t.isLt = (k1_pay4 (b t) (k1_pay1 (F := Ideal)), k1_pay5 (b t) (k1_pay2 (F := Ideal))))
    (hB : ∀ t : Fin N, ¬t.val % 10 = 0 → o t.val t.isLt
      = (k1_pay4 (b t) (o (t.val - 1) (Nat.lt_of_le_of_lt (Nat.sub_le _ _) t.isLt)).1,
         k1_pay5 (b t) (o (t.val - 1) (Nat.lt_of_le_of_lt (Nat.sub_le _ _) t.isLt)).2))
    (hb : ∀ (t : Fin N) (r : Fin 10000) (j : Fin 64) (h : t.val * 10000 + r.val < 100000),
      b t (ix2 r j) = x (ix2 ⟨t.val * 10000 + r.val, h⟩ j))
    (t : Fin N) (h9 : t.val % 10 = 9) :
    (o t.val t.isLt).1 = rowOf (colsum x) ∧ (o t.val t.isLt).2 = rowOf (colsumsq x) := by
  obtain ⟨n, hn⟩ := t
  dsimp only at h9
  obtain rfl : n = 9 := by omega
  have h0 := fun hn : 0 < N => hA ⟨0, hn⟩ rfl
  have hs := fun n (hn : n + 1 < N) => hB ⟨n + 1, hn⟩ (by dsimp only; omega)
  have g1 : (o 9 hn).1 = rowOf (colsum x) := by
    refine fold_last hN (fun n hn => (o n hn).1) b x (fun hn u j => ?_) (fun n hn u j => ?_) hb hn
    · rw [h0 hn]
      exact (step_sum_apply _ _ u j).trans (by rw [reset_apply, zero_add])
    · rw [hs n hn]
      exact step_sum_apply _ _ u j
  have g2 : (o 9 hn).2 = rowOf (colsum fun i => x i * x i) := by
    refine fold_last hN (fun n hn => (o n hn).2) (fun t i => b t i * b t i) _ (fun hn u j => ?_) (fun n hn u j => ?_)
      (fun t r j h => by rw [hb t r j h]) hn
    · rw [h0 hn]
      exact (step_sumsq_apply _ _ u j).trans (by rw [reset_sumsq_apply, zero_add])
    · rw [hs n hn]
      exact step_sumsq_apply _ _ u j
  rw [colsumsq_eq]
  exact ⟨g1, g2⟩

end Cert.KernelIdeal.Regions.ColumnSums

end
-- ==== Proof.RegStats4.lean ====
import proofs.«419311_j30124900614317_1_alg».proof.Proof.Gen.KernelIdeal.Frame
import proofs.«419311_j30124900614317_1_alg».proof.Proof.ColumnSums

noncomputable section

namespace Cert.KernelIdeal.Regions

open Idealize.ShloMosaic Idealize.ShloMosaic.TcCoe Idealize.ShloMosaic.ValueIdx Idealize.ShloMosaic.Tactic
open Idealize.ShloMosaic.Pipeline (Dat Cfg Window)
open Cert.KernelIdeal Cert.KernelIdeal.Gen Cert.KernelIdeal.Regions.ColumnSums
open Cert.GraphNet (rowOf colsum colsumsq)

variable (V : (c : Dev nD) → (b : Ref sig .tc) → Buf (Elt Ideal) ((c : Thread nD τ).loc b))

namespace Stats4

abbrev xarr (c : Dev nD) : S100000x64.Idx → EReal := V c main_v46
abbrev xblk (c : Dev nD) (t : Fin cfg4.N) : Vec Ideal S10000x64 .f32 := iblk4 V c 0 t

-- A first point zeroes both rows before its block is added.
theorem outs_first (c : Dev nD) (t : Fin cfg4.N) (h0 : t.val % 10 = 0) :
    outsAt4 V c t.val t.isLt = (k4_pay4 (xblk V c t) (k4_pay1 (F := Ideal)), k4_pay5 (xblk V c t) (k4_pay2 (F := Ideal))) := by
  rw [outsAt4_A V c t h0]
  unfold out4_A_1 out4_A_2
  rw [View.read_writes_eq_canon _ _ _ (cover4_A_1 _ _ _ _ _ _ _ _ _ _),
    View.read_writes_eq_canon _ _ _ (cover4_A_2 _ _ _ _ _ _ _ _ _ _)]
  unfold kernelRun4_A
  dsimp only
  sl_unfold_words
  simp only [View.canon_cons_unit_zero (S := S1x64) zero_offsets, View.readCov_unit_zero (S := S1x64) _ zero_offsets,
    View.readAt_eq_ld, (hs4_0 t).read_unread, View.ld_unit_zero (S := S10000x64) zero_offsets]

-- A later point adds its block to the rows as the point before left them.
theorem outs_later (c : Dev nD) (t : Fin cfg4.N) (h0 : ¬t.val % 10 = 0) :
    outsAt4 V c t.val t.isLt
      = (k4_pay4 (xblk V c t) (outsAt4 V c (t.val - 1) (Nat.lt_of_le_of_lt (Nat.sub_le _ _) t.isLt)).1,
         k4_pay5 (xblk V c t) (outsAt4 V c (t.val - 1) (Nat.lt_of_le_of_lt (Nat.sub_le _ _) t.isLt)).2) := by
  rw [outsAt4_B V c t h0]
  unfold out4_B_1 out4_B_2
  rw [View.read_writes_eq_canon _ _ _ (cover4_B_1 _ _ _ _ _ _ _ _ _ _ _ _),
    View.read_writes_eq_canon _ _ _ (cover4_B_2 _ _ _ _ _ _ _ _ _ _ _ _)]
  unfold kernelRun4_B
  dsimp only
  sl_unfold_words
  simp only [View.canon_unit_zero (S := S1x64) zero_offsets, View.readAt_eq_ld, (hs4_0 t).read_unread, (hs4_1 t).read_unread,
    (hs4_2 t).read_unread, View.ld_unit_zero (S := S10000x64) zero_offsets, View.ld_unit_zero (S := S1x64) zero_offsets]

theorem idx_in : ∀ t : Fin cfg4.N, win4_0.index t (0 : Fin 2) = t.val ∧ win4_0.index t (1 : Fin 2) = 0 :=
  (by decide +kernel : ∀ t : Fin grid4.N, _)

theorem off_sum (t : Fin cfg4.N) : (fun a => win4_1.index t a * main_v47_0.ty.shape.size a) = fun _ => 0 :=
  funext ((by decide +kernel : ∀ (t : Fin grid4.N) (a : Fin 2), win4_1.index t a * S1x64.size a = 0) t)
theorem off_sumsq (t : Fin cfg4.N) : (fun a => win4_2.index t a * main_v47_1.ty.shape.size a) = fun _ => 0 :=
  funext ((by decide +kernel : ∀ (t : Fin grid4.N) (a : Fin 2), win4_2.index t a * S1x64.size a = 0) t)

theorem xblk_apply (c : Dev nD) (t : Fin cfg4.N) (r : Fin 10000) (j : Fin 64) (hb : t.val * 10000 + r.val < 100000) :
    xblk V c t (ix2 r j) = xarr V c (ix2 ⟨t.val * 10000 + r.val, hb⟩ j) := by
  show V c main_v46 (((cfg4.win 0).blk t).view.emb (ix2 r j)) = V c main_v46 _
  refine congrArg (V c main_v46) (funext fun a => Fin.ext ?_)
  obtain ⟨e0, e1⟩ := idx_in t
  match a with
  | ⟨0, _⟩ => show win4_0.index t (0 : Fin 2) * 10000 + 1 * r.val = t.val * 10000 + r.val; rw [e0]; omega
  | ⟨1, _⟩ => show win4_0.index t (1 : Fin 2) * 64 + 1 * j.val = j.val; rw [e1]; omega

theorem last_rows (c : Dev nD) (t : Fin cfg4.N) (h9 : t.val % 10 = 9) :
    (outsAt4 V c t.val t.isLt).1 = rowOf (colsum (xarr V c)) ∧ (outsAt4 V c t.val t.isLt).2 = rowOf (colsumsq (xarr V c)) :=
  rows_last (N := cfg4.N) N_4 (outsAt4 V c) (xblk V c) (xarr V c) (outs_first V c) (outs_later V c) (xblk_apply V c) t h9

end Stats4

open Stats4

theorem stats4_sum (c : Dev nD) :
    ((dat4 (F := Ideal) V c).arrAt 1 cfg4.N : S1x64.Idx → EReal)
      = Cert.GraphNet.rowOf (Cert.GraphNet.colsum (V c main_v46 : S100000x64.Idx → EReal)) :=
  (dat4 V c).arrAt_eq_of_cover 1 (rowOf (colsum (xarr V c)))
    (fun t hf => by
      show (cfg4.win 1).cut (grid4.coords t) ((dat4 V c).after 1 t) = _
      rw [after4_1, (last_rows V c t ((flush4_1 t).mp hf)).1]
      exact (Memref.read_access_unit_zero (Elt Ideal) main_v47_0 (off_sum t) _ _).symm)
    fun i => ⟨t4_9, (flush4_1 t4_9).mpr rfl, by
      show i ∈ ((View.whole main_v47_0).slice (win4_1.rect t4_9)).set
      rw [View.set_slice_whole]
      exact View.mem_set_unit_zero (off_sum t4_9) _ i⟩

theorem stats4_sumsq (c : Dev nD) :
    ((dat4 (F := Ideal) V c).arrAt 2 cfg4.N : S1x64.Idx → EReal)
      = Cert.GraphNet.rowOf (Cert.GraphNet.colsumsq (V c main_v46 : S100000x64.Idx → EReal)) :=
  (dat4 V c).arrAt_eq_of_cover 2 (rowOf (colsumsq (xarr V c)))
    (fun t hf => by
      show (cfg4.win 2).cut (grid4.coords t) ((dat4 V c).after 2 t) = _
      rw [after4_2, (last_rows V c t ((flush4_2 t).mp hf)).2]
      exact (Memref.read_access_unit_zero (Elt Ideal) main_v47_1 (off_sumsq t) _ _).symm)
    fun i => ⟨t4_9, (flush4_2 t4_9).mpr rfl, by
      show i ∈ ((View.whole main_v47_1).slice (win4_2.rect t4_9)).set
      rw [View.set_slice_whole]
      exact View.mem_set_unit_zero (off_sumsq t4_9) _ i⟩

end Cert.KernelIdeal.Regions

end
-- ==== Proof.RegBn2Pay.lean ====
import proofs.«419311_j30124900614317_1_alg».proof.Proof.Gen.KernelIdeal.Skeleton
import proofs.«419311_j30124900614317_1_alg».proof.Proof.Spec
import Idealize.ShloMosaic.Lib.Pipeline.Value
import Idealize.ShloMosaic.Lib.ValueIdx
import Idealize.ShloMosaic.Lib.ValueLayout
import Idealize.ShloMosaic.PureOps.Ideal.Laws

namespace Cert.KernelIdeal.Regions

open Idealize.ShloMosaic Idealize.ShloMosaic.ValueIdx
open Cert.KernelIdeal Cert.KernelIdeal.Gen

/-- Entry y of the body's value is max(((h − μ)·s)·γ + β, 0) at row 10000·T + (y 0), column (y 1): each one-row operand is read at the column. -/
theorem k2_pay1_block {x0 : Vec Ideal S10000x64 .f32} {x1 x2 x3 x4 : Vec Ideal S1x64 .f32}
    {h : S100000x64.Idx → EReal} {mu s g be : S1x64.Idx → EReal} (T : Nat)
    (h0 : ∀ (y : S10000x64.Idx) (k : S100000x64.Idx), (k 0).val = T * 10000 + (y 0).val → (k 1).val = (y 1).val →
      (x0 : S10000x64.Idx → EReal) y = h k)
    (h1 : (x1 : S1x64.Idx → EReal) = mu) (h2 : (x2 : S1x64.Idx → EReal) = s) (h3 : (x3 : S1x64.Idx → EReal) = g)
    (h4 : (x4 : S1x64.Idx → EReal) = be)
    (j : S10000x64.Idx) (k : S100000x64.Idx) (hk0 : (k 0).val = T * 10000 + (j 0).val) (hk1 : (k 1).val = (j 1).val) :
    (k2_pay1 (F := Ideal) x0 x1 x2 x3 x4 : S10000x64.Idx → EReal) j
      = Cert.GraphNet.bnApply h (fun q => mu (ix2 (0 : Fin 1) q)) (fun q => s (ix2 (0 : Fin 1) q))
          (fun q => g (ix2 (0 : Fin 1) q)) (fun q => be (ix2 (0 : Fin 1) q)) k := by
  subst h1 h2 h3 h4
  obtain ⟨r, q, rfl⟩ : ∃ (r : Fin 10000) (q : Fin 64), j = ix2 r q := ⟨j 0, j 1, eq_ix2 j⟩
  unfold k2_pay1 Cert.GraphNet.bnApply
  simp only [shapeCast_self]
  rw [maximumf_apply, addf_apply, mulf_apply, mulf_apply, subf_apply, broadcast_apply,
    broadcastTo_1b_ab_apply x1 broadcasts_S1x64_S10000x64 r q,
    broadcastTo_1b_ab_apply x2 broadcasts_S1x64_S10000x64 r q,
    broadcastTo_1b_ab_apply x3 broadcasts_S1x64_S10000x64 r q,
    broadcastTo_1b_ab_apply x4 broadcasts_S1x64_S10000x64 r q, h0 (ix2 r q) k hk0 hk1,
    show k 1 = q from Fin.ext hk1]
  exact congrArg (max _) Ideal.ofBits_zero_f32

end Cert.KernelIdeal.Regions
-- ==== Proof.RegBn2.lean ====
import proofs.«419311_j30124900614317_1_alg».proof.Proof.Gen.KernelIdeal.Frame
import proofs.«419311_j30124900614317_1_alg».proof.Proof.Spec
import proofs.«419311_j30124900614317_1_alg».proof.Proof.LibKeepdims
import proofs.«419311_j30124900614317_1_alg».proof.Proof.RegBn2Pay
import Idealize.ShloMosaic.Lib.Pipeline.Value

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem zero_off_bn : (![0, 0] : Fin 2 → Nat) = fun _ => 0 := funext fun a => by fin_cases a <;> rfl

/-- A single piece that covers every index is that piece's function. -/
theorem out2_5_eq (x0 : Vec Ideal S10000x64 .f32) (x1 x2 x3 x4 : Vec Ideal S1x64 .f32) :
    out2_5 (F := Ideal) x0 x1 x2 x3 x4 = k2_pay1 x0 x1 x2 x3 x4 := by
  unfold out2_5
  rw [View.canon_unit_zero zero_off_bn]
  simp only [View.ld_unit_zero (S := S10000x64) zero_off_bn, View.ld_unit_zero (S := S1x64) zero_off_bn]

/-- An element of a window's block sits in the array, axis by axis, at block index times block size plus its own coordinate. -/
theorem rect_emb_eq {G : Pipeline.Grid} (w : Window sig G) (t : Fin G.N) (y : (w.xblock (G.coords t)).Idx) (k : w.shape.Idx)
    (h : ∀ a, (k a).val = w.index t a * w.size a + (y a).val) : (w.rect t).emb y = k :=
  funext fun a => Fin.ext ((w.rect_emb_val t y a).trans (h a).symm)

/-- Block (T, 0) of 10000 rows: row 10000·T + r, column q. -/
theorem at_block {ix : Fin 2 → Nat} {T : Nat} (h : ix = ![T, 0]) {y : S10000x64.Idx} {k : S100000x64.Idx}
    (hk0 : (k 0).val = T * 10000 + (y 0).val) (hk1 : (k 1).val = (y 1).val) (a : Fin 2) :
    (k a).val = ix a * S10000x64.size a + (y a).val := by
  subst h
  match a with
  | ⟨0, _⟩ => exact hk0
  | ⟨1, _⟩ => show (k 1).val = 0 * 64 + (y 1).val; rw [Nat.zero_mul, Nat.zero_add]; exact hk1

/-- Block (0, 0) of a one-row array is the array. -/
theorem at_row {ix : Fin 2 → Nat} (h : ix = ![0, 0]) (y : S1x64.Idx) (a : Fin 2) :
    (y a).val = ix a * S1x64.size a + (y a).val := by
  subst h
  match a with
  | ⟨0, _⟩ => show (y 0).val = 0 * 1 + (y 0).val; rw [Nat.zero_mul, Nat.zero_add]
  | ⟨1, _⟩ => show (y 1).val = 0 * 64 + (y 1).val; rw [Nat.zero_mul, Nat.zero_add]

/-- Row r lies in block (r / 10000, 0). -/
theorem row_in_block (i : S100000x64.Idx) {ix : Fin 2 → Nat} {T : Nat} (h : ix = ![T, 0]) (hT : T = (i 0).val / 10000) (a : Fin 2) :
    ix a * S10000x64.size a ≤ (i a).val ∧ (i a).val < ix a * S10000x64.size a + S10000x64.size a := by
  subst h hT
  match a with
  | ⟨0, _⟩ => exact ⟨Nat.div_mul_le_self _ _, Nat.lt_div_mul_add (by decide)⟩
  | ⟨1, _⟩ =>
    show 0 * 64 ≤ (i 1).val ∧ (i 1).val < 0 * 64 + 64
    rw [Nat.zero_mul, Nat.zero_add]; exact ⟨Nat.zero_le _, (i 1).isLt⟩

/-- Ten blocks of 10000 rows: row r has a block number r / 10000 below ten. -/
theorem block_of_row (i : S100000x64.Idx) {N : Nat} (hN : N = 10) : ∃ t : Fin N, t.val = (i 0).val / 10000 := by
  have hi0 : (i 0).val < 100000 := (i 0).isLt
  exact ⟨⟨(i 0).val / 10000, by rw [hN]; omega⟩, rfl⟩

/-- Point t takes block (t, 0) of the input and of the output and block (0, 0) of each one-row operand; both normalise regions have these index maps. -/
theorem idx_facts_bn2 : ∀ t : Fin cfg2.N,
    win2_0.index t = ![t.val, 0] ∧ win2_1.index t = ![0, 0] ∧ win2_2.index t = ![0, 0]
    ∧ win2_3.index t = ![0, 0] ∧ win2_4.index t = ![0, 0] ∧ win2_5.index t = ![t.val, 0] :=
  (by decide +kernel : ∀ t : Fin grid2.N, _)

/-- The ten blocks tile the array, and block t holds max(((h − μ)·s)·γ + β, 0) on its rows. -/
theorem bn2_value (c : Dev nD) :
    ((dat2 (F := Ideal) V c).arrAt 5 cfg2.N : S100000x64.Idx → EReal)
      = Cert.GraphNet.bnApply (V c main_v18 : S100000x64.Idx → EReal)
          (fun j => (V c main_v21 : S1x64.Idx → EReal) (ix2 (0 : Fin 1) j))
          (fun j => (V c main_v28 : S1x64.Idx → EReal) (ix2 (0 : Fin 1) j))
          (fun j => (V c main_v29 : S1x64.Idx → EReal) (ix2 (0 : Fin 1) j))
          (fun j => (V c main_v30 : S1x64.Idx → EReal) (ix2 (0 : Fin 1) j)) := by
  refine (dat2 (F := Ideal) V c).arrAt_eq_of_cover 5 _ (fun t _ => ?_) fun i => ?_
  · obtain ⟨e0, e1, e2, e3, e4, e5⟩ := idx_facts_bn2 t
    show (cfg2.win 5).cut (grid2.coords t) ((dat2 (F := Ideal) V c).after 5 t) = _
    rw [after2_5]
    funext j
    show (out2_5 (F := Ideal) _ _ _ _ _ : S10000x64.Idx → EReal) j = _
    rw [out2_5_eq]
    exact k2_pay1_block t.val
      (fun y k hk0 hk1 => congrArg (V c main_v18 : S100000x64.Idx → EReal) (rect_emb_eq win2_0 t y k (at_block e0 hk0 hk1)))
      (funext fun y => congrArg (V c main_v21 : S1x64.Idx → EReal) (rect_emb_eq win2_1 t y y (at_row e1 y)))
      (funext fun y => congrArg (V c main_v28 : S1x64.Idx → EReal) (rect_emb_eq win2_2 t y y (at_row e2 y)))
      (funext fun y => congrArg (V c main_v29 : S1x64.Idx → EReal) (rect_emb_eq win2_3 t y y (at_row e3 y)))
      (funext fun y => congrArg (V c main_v30 : S1x64.Idx → EReal) (rect_emb_eq win2_4 t y y (at_row e4 y)))
      j ((win2_5.rect t).emb j) ((win2_5.rect_emb_val t j 0).trans (congrArg (· * 10000 + (j 0).val) (congrFun e5 0)))
      (win2_5.rect_emb_val_of_index_zero t 1 (congrFun e5 1) j)
  · obtain ⟨t, ht⟩ := block_of_row i N_2
    refine ⟨t, flush2_5 t, ?_⟩
    show i ∈ ((View.whole main_v31).slice (win2_5.rect t)).set
    rw [View.set_slice_whole, Rect.mem_set_unit]
    exact row_in_block i (idx_facts_bn2 t).2.2.2.2.2 ht

end Cert.KernelIdeal.Regions
-- ==== Proof.RegBn5.lean ====
import proofs.«419311_j30124900614317_1_alg».proof.Proof.RegBn2

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The same tiling and the same body value, on the second normalise region's arrays. -/
theorem bn5_value (c : Dev nD) :
    ((dat5 (F := Ideal) V c).arrAt 5 cfg5.N : S100000x64.Idx → EReal)
      = Cert.GraphNet.bnApply (V c main_v46 : S100000x64.Idx → EReal)
          (fun j => (V c main_v49 : S1x64.Idx → EReal) (ix2 (0 : Fin 1) j))
          (fun j => (V c main_v56 : S1x64.Idx → EReal) (ix2 (0 : Fin 1) j))
          (fun j => (V c main_v57 : S1x64.Idx → EReal) (ix2 (0 : Fin 1) j))
          (fun j => (V c main_v58 : S1x64.Idx → EReal) (ix2 (0 : Fin 1) j)) := by
  refine (dat5 (F := Ideal) V c).arrAt_eq_of_cover 5 _ (fun t _ => ?_) fun i => ?_
  · obtain ⟨e0, e1, e2, e3, e4, e5⟩ := idx_facts_bn2 t
    show (cfg5.win 5).cut (grid5.coords t) ((dat5 (F := Ideal) V c).after 5 t) = _
    rw [after5_5]
    funext j
    show (out2_5 (F := Ideal) _ _ _ _ _ : S10000x64.Idx → EReal) j = _
    rw [out2_5_eq]
    exact k2_pay1_block t.val
      (fun y k hk0 hk1 => congrArg (V c main_v46 : S100000x64.Idx → EReal) (rect_emb_eq win5_0 t y k (at_block e0 hk0 hk1)))
      (funext fun y => congrArg (V c main_v49 : S1x64.Idx → EReal) (rect_emb_eq win5_1 t y y (at_row e1 y)))
      (funext fun y => congrArg (V c main_v56 : S1x64.Idx → EReal) (rect_emb_eq win5_2 t y y (at_row e2 y)))
      (funext fun y => congrArg (V c main_v57 : S1x64.Idx → EReal) (rect_emb_eq win5_3 t y y (at_row e3 y)))
      (funext fun y => congrArg (V c main_v58 : S1x64.Idx → EReal) (rect_emb_eq win5_4 t y y (at_row e4 y)))
      j ((win5_5.rect t).emb j) ((win5_5.rect_emb_val t j 0).trans (congrArg (· * 10000 + (j 0).val) (congrFun e5 0)))
      (win5_5.rect_emb_val_of_index_zero t 1 (congrFun e5 1) j)
  · obtain ⟨t, ht⟩ := block_of_row i N_5
    refine ⟨t, flush5_5 t, ?_⟩
    show i ∈ ((View.whole main_v59).slice (win5_5.rect t)).set
    rw [View.set_slice_whole, Rect.mem_set_unit]
    exact row_in_block i (idx_facts_bn2 t).2.2.2.2.2 ht

end Cert.KernelIdeal.Regions
-- ==== Proof.LibGatherRows.lean ====
import Idealize.ShloMosaic.Lib.ValueIdx
import Idealize.ShloMosaic.PureOps.ShapeOps
import Idealize.ShloMosaic.PureOps.Dims

namespace Cert.Lib

open Idealize.ShloMosaic Idealize.ShloMosaic.ValueIdx

theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1

  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>

    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>

    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.LibScatterGather.lean ====
import Idealize.ShloMosaic.Lib.ValueIdx
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    constructor
    · intro hf
      exact absurd hf (by simp)
    · intro hf
      exfalso
      apply h
      intro a
      have h1 := hf a
      have h2 := (i a).isLt
      omega

def idxFin1 {n : Nat} : (⟨1, ![n]⟩ : Shape).Idx ≃ Fin n where
  toFun i := i 0
  invFun a := ix1 a
  left_inv i := (eq_ix1 i).symm
  right_inv _ := rfl

theorem rows_start0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (e : Fin n) (c : Fin C) :
    d.start (ix2 e c) idx 0 = (idx (ix2 e (0 : Fin 1))).toInt := by

  have hAll : ∀ y ∈ d.uScatter, y = 0 := by
    intro y hy
    have h1 : y ∉ d.updateWindowDims := by have h0 := (List.mem_filter.1 hy).2; simpa using h0
    rw [huw] at h1
    have h2 : y ≠ 1 := fun e => h1 (List.mem_singleton.2 e)
    apply Fin.ext
    have h3 : y.val ≠ 1 := fun e => h2 (Fin.ext e)
    have := y.isLt
    show y.val = 0
    change y.val < 2 at this
    omega
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 2) d.scatterDimsToOperandDims = 0
    rw [hsd]; simp

theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  rw [resultIdx?_eq_some_iff]
  have hk0 : (0 : Fin 2) ∉ d.sKept := by
    intro h
    have h0 := (List.mem_filter.1 h).2
    rw [hiw] at h0
    simp at h0
  have hk1 : (1 : Fin 2) ∈ d.sKept := by
    apply List.mem_filter.2
    refine ⟨List.mem_finRange _, ?_⟩
    rw [hiw]
    simp
  have hw0 : d.window (ix2 e c) 0 = 0 := by unfold ScatterDims.window; rw [dif_neg hk0]
  have hwAll : ∀ y ∈ d.updateWindowDims, y = 1 := by
    intro y hy; rw [huw] at hy; exact List.mem_singleton.1 hy
  have hw1 : d.window (ix2 e c) 1 = c.val := by
    unfold ScatterDims.window
    rw [dif_pos hk1, hwAll _ (List.getElem_mem _)]
    rfl
  have hm1 : (1 : Fin 2) ∉ d.scatterDimsToOperandDims := by rw [hsd]; simp
  have hs1 : d.start (ix2 e c) idx 1 = 0 := by unfold ScatterDims.start; rw [dif_neg hm1]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [rows_start0 d huw hsd hivd, hw0] at h0
    rw [hs1, hw1] at h1
    refine ⟨by simpa using h0, ?_⟩
    apply Fin.ext
    have h2 : (c.val : ℤ) = (j.val : ℤ) := by simpa using h1
    exact_mod_cast h2
  · rintro ⟨h, rfl⟩ a
    match a with
    | ⟨0, _⟩ =>
      show d.start (ix2 e c) idx 0 + (d.window (ix2 e c) 0 : ℤ) = (v.val : ℤ)
      rw [rows_start0 d huw hsd hivd, hw0, h]
      simp
    | ⟨1, _⟩ =>
      show d.start (ix2 e c) idx 1 + (d.window (ix2 e c) 1 : ℤ) = (c.val : ℤ)
      rw [hs1, hw1]
      simp

theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1

  rw [Finset.sum_filter, sum_idx2]
  refine Finset.sum_congr rfl (fun e _ => ?_)
  by_cases hc : (idx (ix2 e (0 : Fin 1))).toInt = (v.val : ℤ)
  ·
    rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  ·
    rw [if_neg hc]
    apply Finset.sum_eq_zero
    intro c _
    rw [if_neg (fun h => hc ((rows_lands d huw hiw hsd hivd idx e c v j).1 h).1)]

theorem vec_start {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (e : Fin n) :
    d.start (ix1 e) idx 0 = (idx (ix2 e (0 : Fin 1))).toInt := by

  have hAll : ∀ y ∈ d.uScatter, y = 0 := by
    intro y _
    apply Fin.ext
    have := y.isLt
    change y.val < 1 at this
    show y.val = 0
    omega
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 1) d.scatterDimsToOperandDims = 0
    rw [hsd]; simp

theorem vec_lands {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e (0 : Fin 1))).toInt = (v.val : ℤ) := by
  rw [resultIdx?_eq_some_iff]

  have hk : (0 : Fin 1) ∉ d.sKept := by
    intro h
    have h0 := (List.mem_filter.1 h).2
    rw [hiw] at h0
    simp at h0
  have hw : d.window (ix1 e) 0 = 0 := by unfold ScatterDims.window; rw [dif_neg hk]
  constructor
  · intro h
    have h0 : d.start (ix1 e) idx 0 + (d.window (ix1 e) 0 : ℤ) = (v.val : ℤ) := h 0
    rw [vec_start d hsd hivd, hw] at h0
    simpa using h0
  · intro h a
    match a with
    | ⟨0, _⟩ =>
      show d.start (ix1 e) idx 0 + (d.window (ix1 e) 0 : ℤ) = _
      rw [vec_start d hsd hivd, hw, h]
      simp

theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (v : Fin N) :
    Host.scatterAdd (F := Ideal) (φ := .f32) d x idx upd (ix1 v)
      = x (ix1 v) + ∑ e : Fin n, if (idx (ix2 e (0 : Fin 1))).toInt = (v.val : ℤ) then upd (ix1 e) else 0 := by
  unfold Host.scatterAdd
  rw [Ideal.hostScatterAdd_def]
  unfold Ideal.hostScatterAdd
  congr 1
  rw [Finset.sum_filter]

  refine Fintype.sum_equiv idxFin1 _ _ (fun j => ?_)
  obtain ⟨e, rfl⟩ : ∃ e : Fin n, j = ix1 e := ⟨j 0, eq_ix1 j⟩
  change _ = if (idx (ix2 e (0 : Fin 1))).toInt = (v.val : ℤ) then upd (ix1 e) else 0
  by_cases hc : (idx (ix2 e (0 : Fin 1))).toInt = (v.val : ℤ)
  · rw [if_pos hc, if_pos ((vec_lands d hiw hsd hivd idx e v).2 hc)]
  · rw [if_neg hc, if_neg (fun h => hc ((vec_lands d hiw hsd hivd idx e v).1 h))]

end Cert.Lib

end
-- ==== Proof.Agg.lean ====
import proofs.«419311_j30124900614317_1_alg».proof.KernelIdeal
import proofs.«419311_j30124900614317_1_alg».proof.ReferenceIdeal
import proofs.«419311_j30124900614317_1_alg».proof.Proof.Gen.KernelIdeal
import proofs.«419311_j30124900614317_1_alg».proof.Proof.Gen.ReferenceIdeal
import proofs.«419311_j30124900614317_1_alg».proof.Proof.Spec
import proofs.«419311_j30124900614317_1_alg».proof.Proof.LibGatherRows
import proofs.«419311_j30124900614317_1_alg».proof.Proof.LibScatterGather

noncomputable section

namespace Cert.GraphNet

open Idealize.ShloMosaic Idealize.ShloMosaic.ValueIdx
open Cert.LibDense (Mat)

section Kernel
open Cert.KernelIdeal Cert.KernelIdeal.Facts₀

-- The edge list's source column, a negative number counted from the end, and its target column, each as a column of indices.
def srcIdx (ei : IVec S2x1600000 32) : IVec S1600000x1 32 :=
  let s := shapeCast S1600000 (extractStridedSlice S1x1600000 ![0, 0] ei slices_S2x1600000_S1x1600000_0_0) shapeCasts_S1x1600000_S1600000
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def tgtIdx (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

-- The edge aggregation: row v is the sum over the edges into v of weight · (the source's row), from zero.
def aggK9 (ei : IVec S2x1600000 32) (ew : S1600000.Idx → EReal) (t : Mat 100000 9) : Mat 100000 9 :=
  Host.scatterAdd (F := Ideal) (φ := .f32) scatter_S100000x9_S1600000x1_S1600000x9_1_0_0_1
    (broadcastInDim S100000x9 ![] bcast_S_S100000x9 (constant (F := Ideal) S_ .f32 0x00000000#32)) (tgtIdx ei)
    (mulf (F := Ideal) (φ := .f32) (Host.gather gather_S100000x9_S1600000x1_S1600000x9_1_0_n_n_0_1_19 t (srcIdx ei))
      (broadcastInDim S1600000x9 ![0, 1] bcast_S1600000x1_S1600000x9_0_1
        (broadcastInDim S1600000x1 ![0] bcast_S1600000_S1600000x1_0 ew)))

def aggK64 (ei : IVec S2x1600000 32) (ew : S1600000.Idx → EReal) (t : Mat 100000 64) : Mat 100000 64 :=
  Host.scatterAdd (F := Ideal) (φ := .f32) scatter_S100000x64_S1600000x1_S1600000x64_1_0_0_1
    (broadcastInDim S100000x64 ![] bcast_S_S100000x64 (constant (F := Ideal) S_ .f32 0x00000000#32)) (tgtIdx ei)
    (mulf (F := Ideal) (φ := .f32) (Host.gather gather_S100000x64_S1600000x1_S1600000x64_1_0_n_n_0_1_164 t (srcIdx ei))
      (broadcastInDim S1600000x64 ![0, 1] bcast_S1600000x1_S1600000x64_0_1
        (broadcastInDim S1600000x1 ![0] bcast_S1600000_S1600000x1_0 ew)))

end Kernel

-- The reference spells the same operations over the same shapes.
def aggR9 (ei : IVec Cert.ReferenceIdeal.S2x1600000 32) (ew : Cert.ReferenceIdeal.S1600000.Idx → EReal) :
    Mat 100000 9 → Mat 100000 9 := aggK9 ei ew

def aggR64 (ei : IVec Cert.ReferenceIdeal.S2x1600000 32) (ew : Cert.ReferenceIdeal.S1600000.Idx → EReal) :
    Mat 100000 64 → Mat 100000 64 := aggK64 ei ew

theorem aggK9_eq (ei : IVec Cert.KernelIdeal.S2x1600000 32) (ew : Cert.KernelIdeal.S1600000.Idx → EReal) :
    aggK9 ei ew = aggR9 ei ew := rfl

theorem aggK64_eq (ei : IVec Cert.KernelIdeal.S2x1600000 32) (ew : Cert.KernelIdeal.S1600000.Idx → EReal) :
    aggK64 ei ew = aggR64 ei ew := rfl

-- A scatter-add of weighted gathered rows into a finite array is finite: each entry is a finite sum of products of finite numbers.
theorem scatter_scaled_rows_real {N C n : Nat} (hN : 0 < N)
    (ds : ScatterDims ⟨2, ![N, C]⟩ ⟨2, ![n, 1]⟩ ⟨2, ![n, C]⟩)
    (huw : ds.updateWindowDims = [1]) (hiw : ds.insertedWindowDims = [0]) (hsd : ds.scatterDimsToOperandDims = [0])
    (hsv : ds.indexVectorDim = 1)
    (dg : GatherDims ⟨2, ![N, C]⟩ ⟨2, ![n, 1]⟩ ⟨2, ![n, C]⟩)
    (hoff : dg.offsetDims = [1]) (hcoll : dg.collapsedSliceDims = [0]) (hob : dg.operandBatchingDims = [])
    (hsim : dg.startIndexMap = [0]) (hgv : dg.indexVectorDim = 1)
    (z : Mat N C) (hz : RealMat z) (src tgt : IVec ⟨2, ![n, 1]⟩ 32)
    (wt : (⟨2, ![n, C]⟩ : Shape).Idx → EReal) (hw : ∀ i, IsReal (wt i)) (t : Mat N C) (ht : RealMat t) :
    RealMat (Host.scatterAdd (F := Ideal) (φ := .f32) ds z tgt
      (mulf (F := Ideal) (φ := .f32) (Host.gather dg t src) wt) : Mat N C) := by
  intro i
  obtain ⟨v, j, rfl⟩ : ∃ (v : Fin N) (j : Fin C), i = ix2 v j := ⟨i 0, i 1, eq_ix2 i⟩
  rw [Cert.Lib.scatterAdd_rows ds huw hiw hsd hsv]
  refine (hz _).add (isReal_sum _ _ fun e _ => ?_)
  split
  · show IsReal (Host.gather dg t src (ix2 e j) * wt (ix2 e j))
    rw [Cert.Lib.gather_rows dg hoff hcoll hob hsim hgv t src e j hN]
    exact (ht _).mul (hw _)
  · exact isReal_zero

theorem zero_word_real : IsReal (Ideal.ofBits .f32 0x00000000#32) := by
  rw [Ideal.ofBits_zero_f32]; exact isReal_zero

theorem aggR9_keepsReal (ei : IVec Cert.ReferenceIdeal.S2x1600000 32) (ew : Cert.ReferenceIdeal.S1600000.Idx → EReal)
    (hew : ∀ e, IsReal (ew e)) : KeepsReal (aggR9 ei ew) := fun t ht =>
  scatter_scaled_rows_real (by norm_num) _ rfl rfl rfl rfl _ rfl rfl rfl rfl rfl _ (fun _ => zero_word_real) _ _ _
    (fun _ => hew _) t ht

theorem aggR64_keepsReal (ei : IVec Cert.ReferenceIdeal.S2x1600000 32) (ew : Cert.ReferenceIdeal.S1600000.Idx → EReal)
    (hew : ∀ e, IsReal (ew e)) : KeepsReal (aggR64 ei ew) := fun t ht =>
  scatter_scaled_rows_real (by norm_num) _ rfl rfl rfl rfl _ rfl rfl rfl rfl rfl _ (fun _ => zero_word_real) _ _ _
    (fun _ => hew _) t ht

end Cert.GraphNet

end
-- ==== Proof.RegConv0.lean ====
import proofs.«419311_j30124900614317_1_alg».proof.Proof.Gen.KernelIdeal.Frame
import proofs.«419311_j30124900614317_1_alg».proof.Proof.ConvRowBlocks

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.ConvRowBlocks

variable (V : (c : Dev nD) → (b : Ref sig .tc) → Buf (Elt Ideal) ((c : Thread nD τ).loc b))

-- The stored block, entry by entry, is the layer of the five blocks read.
theorem out0_5_apply (x0 x1 : Vec Ideal S10000x9 .f32) (x2 x3 : Vec Ideal S9x64 .f32) (x4 : Vec Ideal S1x64 .f32)
    (p : Fin 10000) (q : Fin 64) :
    out0_5 x0 x1 x2 x3 x4 (ix2 p q)
      = Cert.GraphNet.conv (x0 : S10000x9.Idx → EReal) x1 x2 x3 (fun j => x4 (ix2 (0 : Fin 1) j)) (ix2 p q) := by
  unfold out0_5
  rw [View.canon_unit_zero zero_off]
  simp only [View.ld_unit_zero (S := S10000x9) zero_off, View.ld_unit_zero (S := S9x64) zero_off,
    View.ld_unit_zero (S := S1x64) zero_off]
  unfold k0_pay1
  refine (dense_entry _ rfl _ _ _ _ _ _ p q).trans ?_
  simp only [shapeCast_self]
  rfl

theorem offs0 : ∀ t : Fin grid0.N,
    (∀ a, win0_0.index t a * win0_0.size a = if a.val = 0 then t.val * 10000 else 0)
    ∧ (∀ a, win0_1.index t a * win0_1.size a = if a.val = 0 then t.val * 10000 else 0)
    ∧ (∀ a, win0_2.index t a * win0_2.size a = 0) ∧ (∀ a, win0_3.index t a * win0_3.size a = 0)
    ∧ (∀ a, win0_4.index t a * win0_4.size a = 0)
    ∧ ∀ a, win0_5.index t a * win0_5.size a = if a.val = 0 then t.val * 10000 else 0 := by decide +kernel

theorem conv0_value (c : Dev nD) :
    ((dat0 (F := Ideal) V c).arrAt 5 cfg0.N : S100000x64.Idx → EReal)
      = Cert.GraphNet.conv (V c main_v16 : S100000x9.Idx → EReal) (V c main_arg0 : S100000x9.Idx → EReal)
          (V c main_arg4 : S9x64.Idx → EReal) (V c main_arg5 : S9x64.Idx → EReal)
          (fun j => (V c main_v17 : S1x64.Idx → EReal) (ix2 (0 : Fin 1) j)) := by
  have e5 (t : Fin cfg0.N) (y : S10000x64.Idx) (i : S100000x64.Idx)
      (hi : ∀ a : Fin 2, (i a : Nat) = (if a.val = 0 then t.val * 10000 else 0) + y a) :
      ((cfg0.win 5).blk t).view.emb y = i := rect_emb_at win0_5 t (offs0 t).2.2.2.2.2 y i hi
  refine arrAt_eq_of_emb (dat0 (F := Ideal) V c) 5 _ (fun t _ => funext fun y => ?_) fun (i : S100000x64.Idx) => ?_
  · obtain ⟨p, q, rfl⟩ : ∃ (p : Fin 10000) (q : Fin 64), y = ix2 p q := ⟨y 0, y 1, eq_ix2 y⟩
    obtain ⟨h0, h1, h2, h3, h4, -⟩ := offs0 t
    have hr : t.val * 10000 + p.val < 100000 := by
      have := Nat.lt_of_lt_of_eq t.isLt N_0; have := p.isLt; omega
    rw [View.read_apply, e5 t _ _ (ix2_shift _ p q hr)]
    show (cfg0.win 5).cut (grid0.coords t) ((dat0 V c).after 5 t) (ix2 p q) = _
    rw [after0_5]
    refine (out0_5_apply _ _ _ _ _ p q).trans ?_
    rw [show (iblk0 V c 2 t : S9x64.Idx → EReal) = V c main_arg4 from
        funext fun z => congrArg (V c main_arg4) (rect_emb_at win0_2 t h2 z z fun _ => (Nat.zero_add _).symm),
      show (iblk0 V c 3 t : S9x64.Idx → EReal) = V c main_arg5 from
        funext fun z => congrArg (V c main_arg5) (rect_emb_at win0_3 t h3 z z fun _ => (Nat.zero_add _).symm),
      show (iblk0 V c 4 t : S1x64.Idx → EReal) = V c main_v17 from
        funext fun z => congrArg (V c main_v17) (rect_emb_at win0_4 t h4 z z fun _ => (Nat.zero_add _).symm)]
    exact conv_of_rows _ _ _ _ _ _ _ p ⟨_, hr⟩ q
      (fun j => congrArg (V c main_v16) (rect_emb_at win0_0 t h0 _ _ (ix2_shift _ p j hr)))
      (fun j => congrArg (V c main_arg0) (rect_emb_at win0_1 t h1 _ _ (ix2_shift _ p j hr)))
  · have hi : (i 0).val < 100000 := (i 0).isLt
    obtain ⟨t, ht⟩ : ∃ t : Fin cfg0.N, t.val = (i 0).val / 10000 :=
      ⟨⟨_, Nat.lt_of_lt_of_eq (by omega) N_0.symm⟩, rfl⟩
    exact ⟨t, _, flush0_5 t, e5 t _ i (ix2_divmod (by decide) i _ ht)⟩

end Cert.KernelIdeal.Regions

end
-- ==== Proof.RegStats1.lean ====
import proofs.«419311_j30124900614317_1_alg».proof.Proof.Gen.KernelIdeal.Frame
import proofs.«419311_j30124900614317_1_alg».proof.Proof.ColumnSums

noncomputable section

namespace Cert.KernelIdeal.Regions

open Idealize.ShloMosaic Idealize.ShloMosaic.TcCoe Idealize.ShloMosaic.ValueIdx Idealize.ShloMosaic.Tactic
open Idealize.ShloMosaic.Pipeline (Dat Cfg Window)
open Cert.KernelIdeal Cert.KernelIdeal.Gen Cert.KernelIdeal.Regions.ColumnSums
open Cert.GraphNet (rowOf colsum colsumsq)

variable (V : (c : Dev nD) → (b : Ref sig .tc) → Buf (Elt Ideal) ((c : Thread nD τ).loc b))

namespace Stats1

abbrev xarr (c : Dev nD) : S100000x64.Idx → EReal := V c main_v18
abbrev xblk (c : Dev nD) (t : Fin cfg1.N) : Vec Ideal S10000x64 .f32 := iblk1 V c 0 t

-- A first point zeroes both rows before its block is added.
theorem outs_first (c : Dev nD) (t : Fin cfg1.N) (h0 : t.val % 10 = 0) :
    outsAt1 V c t.val t.isLt = (k1_pay4 (xblk V c t) (k1_pay1 (F := Ideal)), k1_pay5 (xblk V c t) (k1_pay2 (F := Ideal))) := by
  rw [outsAt1_A V c t h0]
  unfold out1_A_1 out1_A_2
  rw [View.read_writes_eq_canon _ _ _ (cover1_A_1 _ _ _ _ _ _ _ _ _ _),
    View.read_writes_eq_canon _ _ _ (cover1_A_2 _ _ _ _ _ _ _ _ _ _)]
  unfold kernelRun1_A
  dsimp only
  sl_unfold_words
  simp only [View.canon_cons_unit_zero (S := S1x64) zero_offsets, View.readCov_unit_zero (S := S1x64) _ zero_offsets,
    View.readAt_eq_ld, (hs1_0 t).read_unread, View.ld_unit_zero (S := S10000x64) zero_offsets]

-- A later point adds its block to the rows as the point before left them.
theorem outs_later (c : Dev nD) (t : Fin cfg1.N) (h0 : ¬t.val % 10 = 0) :
    outsAt1 V c t.val t.isLt
      = (k1_pay4 (xblk V c t) (outsAt1 V c (t.val - 1) (Nat.lt_of_le_of_lt (Nat.sub_le _ _) t.isLt)).1,
         k1_pay5 (xblk V c t) (outsAt1 V c (t.val - 1) (Nat.lt_of_le_of_lt (Nat.sub_le _ _) t.isLt)).2) := by
  rw [outsAt1_B V c t h0]
  unfold out1_B_1 out1_B_2
  rw [View.read_writes_eq_canon _ _ _ (cover1_B_1 _ _ _ _ _ _ _ _ _ _ _ _),
    View.read_writes_eq_canon _ _ _ (cover1_B_2 _ _ _ _ _ _ _ _ _ _ _ _)]
  unfold kernelRun1_B
  dsimp only
  sl_unfold_words
  simp only [View.canon_unit_zero (S := S1x64) zero_offsets, View.readAt_eq_ld, (hs1_0 t).read_unread, (hs1_1 t).read_unread,
    (hs1_2 t).read_unread, View.ld_unit_zero (S := S10000x64) zero_offsets, View.ld_unit_zero (S := S1x64) zero_offsets]

theorem idx_in : ∀ t : Fin cfg1.N, win1_0.index t (0 : Fin 2) = t.val ∧ win1_0.index t (1 : Fin 2) = 0 :=
  (by decide +kernel : ∀ t : Fin grid1.N, _)

theorem off_sum (t : Fin cfg1.N) : (fun a => win1_1.index t a * main_v19_0.ty.shape.size a) = fun _ => 0 :=
  funext ((by decide +kernel : ∀ (t : Fin grid1.N) (a : Fin 2), win1_1.index t a * S1x64.size a = 0) t)
theorem off_sumsq (t : Fin cfg1.N) : (fun a => win1_2.index t a * main_v19_1.ty.shape.size a) = fun _ => 0 :=
  funext ((by decide +kernel : ∀ (t : Fin grid1.N) (a : Fin 2), win1_2.index t a * S1x64.size a = 0) t)

theorem xblk_apply (c : Dev nD) (t : Fin cfg1.N) (r : Fin 10000) (j : Fin 64) (hb : t.val * 10000 + r.val < 100000) :
    xblk V c t (ix2 r j) = xarr V c (ix2 ⟨t.val * 10000 + r.val, hb⟩ j) := by
  show V c main_v18 (((cfg1.win 0).blk t).view.emb (ix2 r j)) = V c main_v18 _
  refine congrArg (V c main_v18) (funext fun a => Fin.ext ?_)
  obtain ⟨e0, e1⟩ := idx_in t
  match a with
  | ⟨0, _⟩ => show win1_0.index t (0 : Fin 2) * 10000 + 1 * r.val = t.val * 10000 + r.val; rw [e0]; omega
  | ⟨1, _⟩ => show win1_0.index t (1 : Fin 2) * 64 + 1 * j.val = j.val; rw [e1]; omega

theorem last_rows (c : Dev nD) (t : Fin cfg1.N) (h9 : t.val % 10 = 9) :
    (outsAt1 V c t.val t.isLt).1 = rowOf (colsum (xarr V c)) ∧ (outsAt1 V c t.val t.isLt).2 = rowOf (colsumsq (xarr V c)) :=
  rows_last (N := cfg1.N) N_1 (outsAt1 V c) (xblk V c) (xarr V c) (outs_first V c) (outs_later V c) (xblk_apply V c) t h9

end Stats1

open Stats1

theorem stats1_sum (c : Dev nD) :
    ((dat1 (F := Ideal) V c).arrAt 1 cfg1.N : S1x64.Idx → EReal)
      = Cert.GraphNet.rowOf (Cert.GraphNet.colsum (V c main_v18 : S100000x64.Idx → EReal)) :=
  (dat1 V c).arrAt_eq_of_cover 1 (rowOf (colsum (xarr V c)))
    (fun t hf => by
      show (cfg1.win 1).cut (grid1.coords t) ((dat1 V c).after 1 t) = _
      rw [after1_1, (last_rows V c t ((flush1_1 t).mp hf)).1]
      exact (Memref.read_access_unit_zero (Elt Ideal) main_v19_0 (off_sum t) _ _).symm)
    fun i => ⟨t1_9, (flush1_1 t1_9).mpr rfl, by
      show i ∈ ((View.whole main_v19_0).slice (win1_1.rect t1_9)).set
      rw [View.set_slice_whole]
      exact View.mem_set_unit_zero (off_sum t1_9) _ i⟩

theorem stats1_sumsq (c : Dev nD) :
    ((dat1 (F := Ideal) V c).arrAt 2 cfg1.N : S1x64.Idx → EReal)
      = Cert.GraphNet.rowOf (Cert.GraphNet.colsumsq (V c main_v18 : S100000x64.Idx → EReal)) :=
  (dat1 V c).arrAt_eq_of_cover 2 (rowOf (colsumsq (xarr V c)))
    (fun t hf => by
      show (cfg1.win 2).cut (grid1.coords t) ((dat1 V c).after 2 t) = _
      rw [after1_2, (last_rows V c t ((flush1_2 t).mp hf)).2]
      exact (Memref.read_access_unit_zero (Elt Ideal) main_v19_1 (off_sumsq t) _ _).symm)
    fun i => ⟨t1_9, (flush1_2 t1_9).mpr rfl, by
      show i ∈ ((View.whole main_v19_1).slice (win1_2.rect t1_9)).set
      rw [View.set_slice_whole]
      exact View.mem_set_unit_zero (off_sumsq t1_9) _ i⟩

end Cert.KernelIdeal.Regions

end
-- ==== Proof.KArgs.lean ====
import proofs.«419311_j30124900614317_1_alg».proof.Proof.Gen.KernelIdeal.Frame

noncomputable section

namespace Cert.KernelIdeal.Chain

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

namespace Args

-- Outside `S` nothing changes from `V` to `V'`; such facts compose along the segments of the program.
def Keeps (S : List (Ref sig .tc)) (V V' : Valuation τ sig (Elt F)) : Prop :=
  ∀ r ∉ S, V' (Proc.devRef .tc r) = V (Proc.devRef .tc r)

theorem Keeps.trans {S S' : List (Ref sig .tc)} {V V' V'' : Valuation τ sig (Elt F)} (h : Keeps S V V') (h' : Keeps S' V' V'') :
    Keeps (S ++ S') V V'' :=
  fun r hr => (h' r fun i => hr (List.mem_append_right _ i)).trans (h r fun i => hr (List.mem_append_left _ i))

abbrev WritesIn (W : List (Ref sig .tc)) (ops : List (HloOp τ sig (Elt F))) : Prop :=
  ops.Forall fun op => op.writes ⊆ (W.map (Proc.devRef (τ := τ) .tc)).toFinset

theorem Keeps.host {W : List (Ref sig .tc)} {ops : List (HloOp τ sig (Elt F))} (hW : WritesIn W ops) (V : Valuation τ sig (Elt F)) :
    Keeps W V (StableHlo.after ops V) :=
  fun _ hr => StableHlo.after_of_writes_sub ops V hW hr

theorem Keeps.region {gr W : ℕ} (win : Fin W → Pipeline.WinSpec sig gr) (c : Dev nD) (V : Valuation τ sig (Elt F))
    (A : (w : Fin W) → Buf (Elt F) ((win w).arr.view.loc (c.tc : Thread nD τ))) :
    Keeps (.ofFn (Pipeline.arrRef win)) V (Pipeline.withArrays win c V A) :=
  fun r hr => Pipeline.withArrays_of_ne win c V A r fun w e => hr (List.mem_ofFn.mpr ⟨w, e⟩)

-- What the host operations before the first region write, and what the later ones write.
abbrev hostW0 : List (Ref sig .tc) :=
  [main_v0, main_v1, main_v2, main_v3, main_c, main_v4, main_v5, main_c_0, main_v6, main_v7, main_v8, main_v9, main_v10, main_v11, main_v12, main_v13, main_cst, main_v14, main_v15, main_v16, main_v17]
abbrev hostW : List (Ref sig .tc) :=
  [main_cst_1, main_v20, main_v21, main_cst_2, main_v22, main_v23, main_v24, main_v25, main_cst_3, main_v26, main_v27, main_v28, main_v29, main_v30,
   main_c_4, main_v32, main_v33, main_c_5, main_v34, main_v35, main_v36, main_v37, main_v38, main_v39, main_v40, main_v41, main_cst_6, main_v42, main_v43, main_v44, main_v45,
   main_cst_7, main_v48, main_v49, main_cst_8, main_v50, main_v51, main_v52, main_v53, main_cst_9, main_v54, main_v55, main_v56, main_v57, main_v58,
   main_c_10, main_v60, main_v61, main_c_11, main_v62, main_v63, main_v64, main_v65, main_v66, main_v67, main_v68, main_v69, main_cst_12, main_v70, main_v71, main_v72, main_v73,
   main_v75,
   main_v77, main_cst_13, main_v78, main_v79, main_v80, main_v81, main_v82, main_v83, main_v84]

-- An operation whose one written reference lies in `W` writes within `W`.
theorem writes_in {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem host_writes : WritesIn (F := F) hostW0 hostOps0 ∧
    [hostOps2, hostOps3, hostOps5, hostOps6, hostOps7, hostOps8].Forall (WritesIn (F := F) hostW) := by
  repeat' apply And.intro
  all_goals exact writes_in (by decide)

theorem K1 (c : Dev nD) : Keeps hostW0 (W0 m ρ c) (W1 m ρ c) := .host host_writes.1 _

-- From the first region's entry to each later boundary: what may have changed on the way.
abbrev chg3 : List (Ref sig .tc) := .ofFn (Pipeline.arrRef spec0) ++ .ofFn (Pipeline.arrRef spec1)
theorem K3 (c : Dev nD) : Keeps chg3 (W1 m ρ c) (W3 m ρ c) := .trans (.region _ _ _ _) (.region _ _ _ _)
abbrev chg5 : List (Ref sig .tc) := chg3 ++ hostW ++ .ofFn (Pipeline.arrRef spec2)
theorem K5 (c : Dev nD) : Keeps chg5 (W1 m ρ c) (W5 m ρ c) := ((K3 m ρ c).trans (.host host_writes.2.1 _)).trans (.region _ _ _ _)
abbrev chg6 : List (Ref sig .tc) := chg5 ++ hostW
theorem K6 (c : Dev nD) : Keeps chg6 (W1 m ρ c) (W6 m ρ c) := (K5 m ρ c).trans (.host host_writes.2.2.1 _)
abbrev chg8 : List (Ref sig .tc) := chg6 ++ .ofFn (Pipeline.arrRef spec3) ++ .ofFn (Pipeline.arrRef spec4)
theorem K8 (c : Dev nD) : Keeps chg8 (W1 m ρ c) (W8 m ρ c) := ((K6 m ρ c).trans (.region _ _ _ _)).trans (.region _ _ _ _)
abbrev chg10 : List (Ref sig .tc) := chg8 ++ hostW ++ .ofFn (Pipeline.arrRef spec5)
theorem K10 (c : Dev nD) : Keeps chg10 (W1 m ρ c) (W10 m ρ c) := ((K8 m ρ c).trans (.host host_writes.2.2.2.1 _)).trans (.region _ _ _ _)
abbrev chg11 : List (Ref sig .tc) := chg10 ++ hostW
theorem K11 (c : Dev nD) : Keeps chg11 (W1 m ρ c) (W11 m ρ c) := (K10 m ρ c).trans (.host host_writes.2.2.2.2.1 _)
abbrev chg12 : List (Ref sig .tc) := chg11 ++ .ofFn (Pipeline.arrRef spec6)
theorem K12 (c : Dev nD) : Keeps chg12 (W1 m ρ c) (W12 m ρ c) := (K11 m ρ c).trans (.region _ _ _ _)
abbrev chg14 : List (Ref sig .tc) := chg12 ++ hostW ++ .ofFn (Pipeline.arrRef spec7)
theorem K14 (c : Dev nD) : Keeps chg14 (W1 m ρ c) (W14 m ρ c) := ((K12 m ρ c).trans (.host host_writes.2.2.2.2.2.1 _)).trans (.region _ _ _ _)
abbrev chg15 : List (Ref sig .tc) := chg14 ++ hostW
theorem K15 (c : Dev nD) : Keeps chg15 (W1 m ρ c) (W15 m ρ c) := (K14 m ρ c).trans (.host host_writes.2.2.2.2.2.2 _)

end Args

open Args

-- No segment writes an argument, so at every boundary each holds what it held at launch.
theorem W1_main_arg0 (c : Dev nD) : W1 m ρ c (Proc.devRef .tc main_arg0) = m ((c : Thread nD τ).loc main_arg0) :=
  K1 m ρ c _ (by decide)
theorem W1_main_arg4 (c : Dev nD) : W1 m ρ c (Proc.devRef .tc main_arg4) = m ((c : Thread nD τ).loc main_arg4) :=
  K1 m ρ c _ (by decide)
theorem W1_main_arg5 (c : Dev nD) : W1 m ρ c (Proc.devRef .tc main_arg5) = m ((c : Thread nD τ).loc main_arg5) :=
  K1 m ρ c _ (by decide)
theorem W1_main_arg6 (c : Dev nD) : W1 m ρ c (Proc.devRef .tc main_arg6) = m ((c : Thread nD τ).loc main_arg6) :=
  K1 m ρ c _ (by decide)
theorem W3_main_arg13 (c : Dev nD) : W3 m ρ c (Proc.devRef .tc main_arg13) = m ((c : Thread nD τ).loc main_arg13) :=
  (K1 m ρ c).trans (K3 m ρ c) _ (by decide)
theorem W3_main_arg14 (c : Dev nD) : W3 m ρ c (Proc.devRef .tc main_arg14) = m ((c : Thread nD τ).loc main_arg14) :=
  (K1 m ρ c).trans (K3 m ρ c) _ (by decide)
theorem W5_main_arg1 (c : Dev nD) : W5 m ρ c (Proc.devRef .tc main_arg1) = m ((c : Thread nD τ).loc main_arg1) :=
  (K1 m ρ c).trans (K5 m ρ c) _ (by decide)
theorem W5_main_arg2 (c : Dev nD) : W5 m ρ c (Proc.devRef .tc main_arg2) = m ((c : Thread nD τ).loc main_arg2) :=
  (K1 m ρ c).trans (K5 m ρ c) _ (by decide)
theorem W5_main_arg9 (c : Dev nD) : W5 m ρ c (Proc.devRef .tc main_arg9) = m ((c : Thread nD τ).loc main_arg9) :=
  (K1 m ρ c).trans (K5 m ρ c) _ (by decide)
theorem W6_main_arg7 (c : Dev nD) : W6 m ρ c (Proc.devRef .tc main_arg7) = m ((c : Thread nD τ).loc main_arg7) :=
  (K1 m ρ c).trans (K6 m ρ c) _ (by decide)
theorem W6_main_arg8 (c : Dev nD) : W6 m ρ c (Proc.devRef .tc main_arg8) = m ((c : Thread nD τ).loc main_arg8) :=
  (K1 m ρ c).trans (K6 m ρ c) _ (by decide)
theorem W8_main_arg15 (c : Dev nD) : W8 m ρ c (Proc.devRef .tc main_arg15) = m ((c : Thread nD τ).loc main_arg15) :=
  (K1 m ρ c).trans (K8 m ρ c) _ (by decide)
theorem W8_main_arg16 (c : Dev nD) : W8 m ρ c (Proc.devRef .tc main_arg16) = m ((c : Thread nD τ).loc main_arg16) :=
  (K1 m ρ c).trans (K8 m ρ c) _ (by decide)
theorem W10_main_arg1 (c : Dev nD) : W10 m ρ c (Proc.devRef .tc main_arg1) = m ((c : Thread nD τ).loc main_arg1) :=
  (K1 m ρ c).trans (K10 m ρ c) _ (by decide)
theorem W10_main_arg2 (c : Dev nD) : W10 m ρ c (Proc.devRef .tc main_arg2) = m ((c : Thread nD τ).loc main_arg2) :=
  (K1 m ρ c).trans (K10 m ρ c) _ (by decide)
theorem W10_main_arg12 (c : Dev nD) : W10 m ρ c (Proc.devRef .tc main_arg12) = m ((c : Thread nD τ).loc main_arg12) :=
  (K1 m ρ c).trans (K10 m ρ c) _ (by decide)
theorem W11_main_arg10 (c : Dev nD) : W11 m ρ c (Proc.devRef .tc main_arg10) = m ((c : Thread nD τ).loc main_arg10) :=
  (K1 m ρ c).trans (K11 m ρ c) _ (by decide)
theorem W11_main_arg11 (c : Dev nD) : W11 m ρ c (Proc.devRef .tc main_arg11) = m ((c : Thread nD τ).loc main_arg11) :=
  (K1 m ρ c).trans (K11 m ρ c) _ (by decide)
theorem W12_main_arg3 (c : Dev nD) : W12 m ρ c (Proc.devRef .tc main_arg3) = m ((c : Thread nD τ).loc main_arg3) :=
  (K1 m ρ c).trans (K12 m ρ c) _ (by decide)
theorem W14_main_arg18 (c : Dev nD) : W14 m ρ c (Proc.devRef .tc main_arg18) = m ((c : Thread nD τ).loc main_arg18) :=
  (K1 m ρ c).trans (K14 m ρ c) _ (by decide)
theorem W14_main_arg20 (c : Dev nD) : W14 m ρ c (Proc.devRef .tc main_arg20) = m ((c : Thread nD τ).loc main_arg20) :=
  (K1 m ρ c).trans (K14 m ρ c) _ (by decide)
theorem W15_main_arg17 (c : Dev nD) : W15 m ρ c (Proc.devRef .tc main_arg17) = m ((c : Thread nD τ).loc main_arg17) :=
  (K1 m ρ c).trans (K15 m ρ c) _ (by decide)
theorem W15_main_arg19 (c : Dev nD) : W15 m ρ c (Proc.devRef .tc main_arg19) = m ((c : Thread nD τ).loc main_arg19) :=
  (K1 m ρ c).trans (K15 m ρ c) _ (by decide)
theorem W5_main_v1 (c : Dev nD) : W5 m ρ c (Proc.devRef .tc main_v1) = W1 m ρ c (Proc.devRef .tc main_v1) :=
  K5 m ρ c _ (by decide)
theorem W5_main_v3 (c : Dev nD) : W5 m ρ c (Proc.devRef .tc main_v3) = W1 m ρ c (Proc.devRef .tc main_v3) :=
  K5 m ρ c _ (by decide)
theorem W10_main_v1 (c : Dev nD) : W10 m ρ c (Proc.devRef .tc main_v1) = W1 m ρ c (Proc.devRef .tc main_v1) :=
  K10 m ρ c _ (by decide)
theorem W10_main_v3 (c : Dev nD) : W10 m ρ c (Proc.devRef .tc main_v3) = W1 m ρ c (Proc.devRef .tc main_v3) :=
  K10 m ρ c _ (by decide)

end Cert.KernelIdeal.Chain

end
-- ==== Proof.KInputs.lean ====
import proofs.«419311_j30124900614317_1_alg».proof.KernelIdeal
import proofs.«419311_j30124900614317_1_alg».proof.Proof.Spec

noncomputable section

namespace Cert.GraphNet

open Idealize.ShloMosaic Idealize.ShloMosaic.ValueIdx
open Cert.KernelIdeal

variable (m : (ℓ : Loc nD τ sig) → Buf (Elt Ideal) ℓ) (c : Dev nD)

def vecK {k : Nat} (v : (⟨1, ![k]⟩ : Shape).Idx → EReal) (j : Fin k) : EReal := v (ix1 j)

def edgesK : IVec S2x1600000 32 := m ((c.tc : Thread nD τ).loc main_arg1)
def weightsK : S1600000.Idx → EReal := m ((c.tc : Thread nD τ).loc main_arg2)

def inputsK : Inputs where
  x := m ((c.tc : Thread nD τ).loc main_arg0)
  batch := fun r => (m ((c.tc : Thread nD τ).loc main_arg3) : IVec S100000 32) (ix1 r)
  wrel0 := m ((c.tc : Thread nD τ).loc main_arg4)
  wroot0 := m ((c.tc : Thread nD τ).loc main_arg5)
  b0 := vecK (m ((c.tc : Thread nD τ).loc main_arg6))
  wrel1 := m ((c.tc : Thread nD τ).loc main_arg7)
  wroot1 := m ((c.tc : Thread nD τ).loc main_arg8)
  b1 := vecK (m ((c.tc : Thread nD τ).loc main_arg9))
  wrel2 := m ((c.tc : Thread nD τ).loc main_arg10)
  wroot2 := m ((c.tc : Thread nD τ).loc main_arg11)
  b2 := vecK (m ((c.tc : Thread nD τ).loc main_arg12))
  g0 := vecK (m ((c.tc : Thread nD τ).loc main_arg13))
  be0 := vecK (m ((c.tc : Thread nD τ).loc main_arg14))
  g1 := vecK (m ((c.tc : Thread nD τ).loc main_arg15))
  be1 := vecK (m ((c.tc : Thread nD τ).loc main_arg16))
  wl1 := m ((c.tc : Thread nD τ).loc main_arg17)
  bl1 := vecK (m ((c.tc : Thread nD τ).loc main_arg18))
  wl2 := m ((c.tc : Thread nD τ).loc main_arg19)
  bl2 := vecK (m ((c.tc : Thread nD τ).loc main_arg20))

end Cert.GraphNet

end
-- ==== Proof.KHostReads.lean ====
import proofs.«419311_j30124900614317_1_alg».proof.KernelIdeal
import proofs.«419311_j30124900614317_1_alg».proof.Proof.Gen.KernelIdeal
import proofs.«419311_j30124900614317_1_alg».proof.Proof.Spec
import proofs.«419311_j30124900614317_1_alg».proof.Proof.KInputs
import proofs.«419311_j30124900614317_1_alg».proof.Proof.LibDense
import proofs.«419311_j30124900614317_1_alg».proof.Proof.LibKeepdims
import Idealize.ShloMosaic.Lib.ValueLayout
import Idealize.ShloMosaic.Lib.IdealHost
import Idealize.ShloMosaic.Lib.Pipeline.Value

noncomputable section

namespace Cert.KernelIdeal.Chain.Reads

open Idealize.ShloMosaic Idealize.ShloMosaic.ValueIdx
open Cert.KernelIdeal Cert.KernelIdeal.Gen
open Cert.GraphNet (vecK nodes eps mean varK invstd colsum colsumsq rowOf poolSum poolCnt pooled conv bnApply bnWith)
open Cert.LibDense (Mat)

abbrev Row : Type := FVec Ideal S1x64 .f32

def splatRow (w : BitVec 32) : Row :=
  broadcastInDim S1x64 ![] bcast_S_S1x64 (constant (F := Ideal) S_ .f32 w)

theorem splatRow_apply (w : BitVec 32) (i : S1x64.Idx) : splatRow w i = Ideal.ofBits .f32 w :=
  broadcastInDim_scalar_apply bcast_S_S1x64 _ i

def meanRow (s : Row) : Row := Host.divf s (splatRow 0x47C35000#32)

theorem meanRow_apply (s : Row) (i : S1x64.Idx) : meanRow s i = Ideal.div (s i) nodes :=
  congrArg (Ideal.div (s i)) (splatRow_apply _ i)

def invstdRow (s0 s1 : Row) : Row :=
  Host.rsqrt (addf (subf (meanRow s1) (mulf (meanRow s0) (meanRow s0))) (splatRow 0x3727C5AC#32))

theorem invstdRow_apply (s0 s1 : Row) (i : S1x64.Idx) :
    invstdRow s0 s1 i
      = Ideal.rsqrt ((Ideal.div (s1 i) nodes - Ideal.div (s0 i) nodes * Ideal.div (s0 i) nodes) + eps) := by
  show Ideal.rsqrt ((meanRow s1 i - meanRow s0 i * meanRow s0 i) + splatRow 0x3727C5AC#32 i) = _
  rw [splatRow_apply, meanRow_apply, meanRow_apply]
  rfl

def asRow (v : FVec Ideal S64 .f32) : Row := shapeCast S1x64 v shapeCasts_S64_S1x64

theorem asRow_apply (v : FVec Ideal S64 .f32) (j : Fin 64) : asRow v (ix2 (0 : Fin 1) j) = vecK v j :=
  shapeCast_a_1a_apply v shapeCasts_S64_S1x64 (0 : Fin 1) j

-- A dense part depends on its five operands only; the bias is read off a one-row array.
theorem conv_rows {n k : Nat} {a a' x x' : Mat n k} {wr wr' wo wo' : Mat k 64} {r : Row} {v : FVec Ideal S64 .f32}
    (ha : a = a') (hx : x = x') (hwr : wr = wr') (hwo : wo = wo') (hr : r = asRow v) :
    conv a x wr wo (fun j => r (ix2 (0 : Fin 1) j)) = conv a' x' wr' wo' (vecK v) := by
  subst ha hx hwr hwo hr
  exact congrArg _ (funext (asRow_apply v))

-- The mean and 1 / sqrt(var + ε) rows formed from the two rows of column sums are the statistics of the columns.
theorem bn_rows {h H : Mat 100000 64} {s0 s1 mu s g b : Row} {vg vb : FVec Ideal S64 .f32}
    (hh : h = H) (h0 : s0 = rowOf (colsum H)) (h1 : s1 = rowOf (colsumsq H)) (hmu : mu = meanRow s0)
    (hs : s = invstdRow s0 s1) (hg : g = asRow vg) (hb : b = asRow vb) :
    bnApply h (fun j => mu (ix2 (0 : Fin 1) j)) (fun j => s (ix2 (0 : Fin 1) j)) (fun j => g (ix2 (0 : Fin 1) j))
      (fun j => b (ix2 (0 : Fin 1) j)) = bnWith varK H (vecK vg) (vecK vb) := by
  subst hh h0 h1 hmu hs hg hb
  have e1 : (fun j => meanRow (rowOf (colsum h)) (ix2 (0 : Fin 1) j)) = mean h :=
    funext fun j => meanRow_apply _ _
  have e2 : (fun j => invstdRow (rowOf (colsum h)) (rowOf (colsumsq h)) (ix2 (0 : Fin 1) j)) = invstd (varK h) :=
    funext fun j => invstdRow_apply _ _ _
  rw [e1, e2, funext (asRow_apply vg), funext (asRow_apply vb)]
  rfl

def asRow6 (v : FVec Ideal S6 .f32) : FVec Ideal S1x6 .f32 := shapeCast S1x6 v shapeCasts_S6_S1x6

theorem asRow6_apply (v : FVec Ideal S6 .f32) (j : Fin 6) : asRow6 v (ix2 (0 : Fin 1) j) = vecK v j :=
  shapeCast_a_1a_apply v shapeCasts_S6_S1x6 (0 : Fin 1) j

def batchCol (b : IVec S100000 32) : IVec S100000x1 32 := shapeCast S100000x1 b shapeCasts_S100000_S100000x1

theorem batchCol_apply (b : IVec S100000 32) (r : Fin 100000) (u : Fin 1) : batchCol b (ix2 r u) = b (ix1 r) :=
  Cert.Keepdims.shapeCast_a_a1_apply b shapeCasts_S100000_S100000x1 r u

def cntGrid (C : FVec Ideal S1x1024 .f32) : FVec Ideal S1024x64 .f32 :=
  broadcastInDim S1024x64 ![0, 1] bcast_S1024x1_S1024x64_0_1
    (broadcastInDim S1024x1 ![0] bcast_S1024_S1024x1_0
      (maximumf (shapeCast S1024 C shapeCasts_S1x1024_S1024)
        (broadcastInDim S1024 ![] bcast_S_S1024 (constant (F := Ideal) S_ .f32 0x3F800000#32))))

theorem cntGrid_apply (C : FVec Ideal S1x1024 .f32) (g : Fin 1024) (c : Fin 64) :
    cntGrid C (ix2 g c) = max (C (ix2 (0 : Fin 1) g)) Cert.GraphNet.one := by
  unfold cntGrid
  rw [broadcastInDim_apply ![0, 1] bcast_S1024x1_S1024x64_0_1 _ (ix2 g c) (ix2 g (0 : Fin 1)) (fun a => by
        match a with
        | ⟨0, _⟩ => show g.val = if (1024 : ℕ) = 1 then 0 else g.val; rw [if_neg (by decide)]
        | ⟨1, _⟩ => show 0 = if (1 : ℕ) = 1 then 0 else c.val; rw [if_pos rfl]),
    broadcastInDim_apply ![0] bcast_S1024_S1024x1_0 _ (ix2 g (0 : Fin 1)) (ix1 g) (fun a => by
        match a with
        | ⟨0, _⟩ => show g.val = if (1024 : ℕ) = 1 then 0 else g.val; rw [if_neg (by decide)])]
  show max (shapeCast S1024 C shapeCasts_S1x1024_S1024 (ix1 g))
    (broadcastInDim S1024 ![] bcast_S_S1024 (constant (F := Ideal) S_ .f32 0x3F800000#32) (ix1 g)) = _
  rw [shapeCast_1a_a_apply C shapeCasts_S1x1024_S1024 g, broadcastInDim_scalar_apply bcast_S_S1024 _ (ix1 g)]
  rfl

def pooledK (S : FVec Ideal S1024x64 .f32) (C : FVec Ideal S1x1024 .f32) : FVec Ideal S1024x64 .f32 :=
  Host.divf S (cntGrid C)

theorem pooledK_apply (S : FVec Ideal S1024x64 .f32) (C : FVec Ideal S1x1024 .f32) (g : Fin 1024) (c : Fin 64) :
    pooledK S C (ix2 g c) = Ideal.div (S (ix2 g c)) (max (C (ix2 (0 : Fin 1) g)) Cert.GraphNet.one) := by
  show Ideal.div (S (ix2 g c)) (cntGrid C (ix2 g c)) = _
  rw [cntGrid_apply]

theorem pooledK_pool (h : Mat 100000 64) (b : Fin 100000 → BitVec 32) :
    pooledK (poolSum h b) (rowOf (poolCnt (G := 1024) b)) = pooled h b := by
  funext i
  obtain ⟨g, c, rfl⟩ : ∃ (g : Fin 1024) (c : Fin 64), i = ix2 g c := ⟨i 0, i 1, eq_ix2 i⟩
  rw [pooledK_apply]
  rfl

end Cert.KernelIdeal.Chain.Reads

end
-- ==== Proof.KChainA.lean ====
import proofs.«419311_j30124900614317_1_alg».proof.Proof.Agg
import proofs.«419311_j30124900614317_1_alg».proof.Proof.RegConv0
import proofs.«419311_j30124900614317_1_alg».proof.Proof.RegStats1
import proofs.«419311_j30124900614317_1_alg».proof.Proof.RegBn2
import proofs.«419311_j30124900614317_1_alg».proof.Proof.KArgs
import proofs.«419311_j30124900614317_1_alg».proof.Proof.KHostReads

noncomputable section

namespace Cert.KernelIdeal.Chain

open Idealize.ShloMosaic Idealize.ShloMosaic.TcCoe Idealize.ShloMosaic.ValueIdx
open Cert.KernelIdeal Cert.KernelIdeal.Gen
open Cert.GraphNet (inputsK edgesK weightsK aggK9 aggK64 varK)
open Cert.GraphNet (colsum colsumsq rowOf H0 Y0)
open Cert.KernelIdeal.Chain.Reads

variable (m : (ℓ : Loc nD τ sig) → Buf (Elt Ideal) ℓ) (ρ : Dev nD → PrngReg)

theorem V1_v16 (c : Dev nD) :
    (V1 (F := Ideal) m ρ c main_v16 : S100000x9.Idx → EReal)
      = aggK9 (edgesK m c) (weightsK m c) (m ((c : Thread nD τ).loc main_arg0)) := by
  show StableHlo.after hostOps0 _ (Proc.devRef .tc main_v16) = _
  after_results_simp
  rfl

theorem V1_v17 (c : Dev nD) :
    (V1 (F := Ideal) m ρ c main_v17 : Row) = asRow (m ((c : Thread nD τ).loc main_arg6)) := by
  show StableHlo.after hostOps0 _ (Proc.devRef .tc main_v17) = _
  after_results
  rfl

theorem W2_v18 (c : Dev nD) :
    (W2 (F := Ideal) m ρ c (Proc.devRef .tc main_v18) : S100000x64.Idx → EReal)
      = H0 (aggK9 (edgesK m c) (weightsK m c)) (inputsK m c) :=
  ((W2_arr m ρ c 5).trans (Regions.conv0_value (V1 m ρ) c)).trans
    (conv_rows (V1_v16 m ρ c) (W1_main_arg0 m ρ c) (W1_main_arg4 m ρ c) (W1_main_arg5 m ρ c) (V1_v17 m ρ c))

theorem W3_v18 (c : Dev nD) :
    (W3 (F := Ideal) m ρ c (Proc.devRef .tc main_v18) : S100000x64.Idx → EReal)
      = H0 (aggK9 (edgesK m c) (weightsK m c)) (inputsK m c) :=
  ((W3_arr m ρ c 0).trans (((dat1 (V2 m ρ) c).arrAt_in 0 rfl _).trans (A_eq1 (V2 m ρ) c 0))).trans (W2_v18 m ρ c)

theorem W3_v19_0 (c : Dev nD) :
    (W3 (F := Ideal) m ρ c (Proc.devRef .tc main_v19_0) : Row)
      = rowOf (colsum (H0 (aggK9 (edgesK m c) (weightsK m c)) (inputsK m c))) :=
  ((W3_arr m ρ c 1).trans (Regions.stats1_sum (V2 m ρ) c)).trans (congrArg (fun h => rowOf (colsum h)) (W2_v18 m ρ c))

theorem W3_v19_1 (c : Dev nD) :
    (W3 (F := Ideal) m ρ c (Proc.devRef .tc main_v19_1) : Row)
      = rowOf (colsumsq (H0 (aggK9 (edgesK m c) (weightsK m c)) (inputsK m c))) :=
  ((W3_arr m ρ c 2).trans (Regions.stats1_sumsq (V2 m ρ) c)).trans (congrArg (fun h => rowOf (colsumsq h)) (W2_v18 m ρ c))

theorem V4_v18 (c : Dev nD) :
    (V4 (F := Ideal) m ρ c main_v18 : S100000x64.Idx → EReal)
      = H0 (aggK9 (edgesK m c) (weightsK m c)) (inputsK m c) := by
  show StableHlo.after hostOps2 _ (Proc.devRef .tc main_v18) = _
  after_results
  exact W3_v18 m ρ c

theorem V4_v21 (c : Dev nD) :
    (V4 (F := Ideal) m ρ c main_v21 : Row) = meanRow (W3 m ρ c (Proc.devRef .tc main_v19_0)) := by
  show StableHlo.after hostOps2 _ (Proc.devRef .tc main_v21) = _
  after_results
  rfl

theorem V4_v28 (c : Dev nD) :
    (V4 (F := Ideal) m ρ c main_v28 : Row)
      = invstdRow (W3 m ρ c (Proc.devRef .tc main_v19_0)) (W3 m ρ c (Proc.devRef .tc main_v19_1)) := by
  show StableHlo.after hostOps2 _ (Proc.devRef .tc main_v28) = _
  after_results
  rfl

theorem V4_v29 (c : Dev nD) :
    (V4 (F := Ideal) m ρ c main_v29 : Row) = asRow (m ((c : Thread nD τ).loc main_arg13)) := by
  show StableHlo.after hostOps2 _ (Proc.devRef .tc main_v29) = _
  after_results
  exact congrArg asRow (W3_main_arg13 m ρ c)

theorem V4_v30 (c : Dev nD) :
    (V4 (F := Ideal) m ρ c main_v30 : Row) = asRow (m ((c : Thread nD τ).loc main_arg14)) := by
  show StableHlo.after hostOps2 _ (Proc.devRef .tc main_v30) = _
  after_results
  exact congrArg asRow (W3_main_arg14 m ρ c)

theorem y0_value (c : Dev nD) :
    (W5 (F := Ideal) m ρ c (Proc.devRef .tc main_v31) : S100000x64.Idx → EReal)
      = Y0 varK (aggK9 (edgesK m c) (weightsK m c)) (inputsK m c) :=
  ((W5_arr m ρ c 5).trans (Regions.bn2_value (V4 m ρ) c)).trans
    (bn_rows (V4_v18 m ρ c) (W3_v19_0 m ρ c) (W3_v19_1 m ρ c) (V4_v21 m ρ c) (V4_v28 m ρ c) (V4_v29 m ρ c)
      (V4_v30 m ρ c))

end Cert.KernelIdeal.Chain

end
-- ==== Proof.KChainB.lean ====
import proofs.«419311_j30124900614317_1_alg».proof.Proof.RegConv3
import proofs.«419311_j30124900614317_1_alg».proof.Proof.RegStats4
import proofs.«419311_j30124900614317_1_alg».proof.Proof.RegBn5
import proofs.«419311_j30124900614317_1_alg».proof.Proof.KChainA

noncomputable section

namespace Cert.KernelIdeal.Chain

open Idealize.ShloMosaic Idealize.ShloMosaic.TcCoe Idealize.ShloMosaic.ValueIdx
open Cert.KernelIdeal Cert.KernelIdeal.Gen
open Cert.GraphNet (inputsK edgesK weightsK aggK9 aggK64 varK)
open Cert.GraphNet (colsum colsumsq rowOf Y0 H1 Y1)
open Cert.KernelIdeal.Chain.Reads

variable (m : (ℓ : Loc nD τ sig) → Buf (Elt Ideal) ℓ) (ρ : Dev nD → PrngReg)

namespace LayerB

theorem edge_src_at1 (c : Dev nD) :
    (W1 (F := Ideal) m ρ c (Proc.devRef .tc main_v1) : IVec S1600000 32)
      = shapeCast S1600000 (extractStridedSlice S1x1600000 ![0, 0] (edgesK m c) Facts₀.slices_S2x1600000_S1x1600000_0_0) Facts₀.shapeCasts_S1x1600000_S1600000 := by
  show StableHlo.after hostOps0 _ (Proc.devRef .tc main_v1) = _
  after_results
  rfl

theorem edge_tgt_at1 (c : Dev nD) :
    (W1 (F := Ideal) m ρ c (Proc.devRef .tc main_v3) : IVec S1600000 32)
      = shapeCast S1600000 (extractStridedSlice S1x1600000 ![1, 0] (edgesK m c) Facts₀.slices_S2x1600000_S1x1600000_1_0) Facts₀.shapeCasts_S1x1600000_S1600000 := by
  show StableHlo.after hostOps0 _ (Proc.devRef .tc main_v3) = _
  after_results
  rfl

theorem y0_at6 (c : Dev nD) :
    (V6 (F := Ideal) m ρ c main_v31 : S100000x64.Idx → EReal)
      = Y0 varK (aggK9 (edgesK m c) (weightsK m c)) (inputsK m c) := by
  show StableHlo.after hostOps3 _ (Proc.devRef .tc main_v31) = _
  after_results
  exact y0_value m ρ c

theorem agg_at6 (c : Dev nD) :
    (V6 (F := Ideal) m ρ c main_v44 : S100000x64.Idx → EReal)
      = aggK64 (edgesK m c) (weightsK m c) (Y0 varK (aggK9 (edgesK m c) (weightsK m c)) (inputsK m c)) := by
  show StableHlo.after hostOps3 _ (Proc.devRef .tc main_v44) = _
  after_results_simp
  rw [W5_main_v1 m ρ c, W5_main_v3 m ρ c, edge_src_at1 m ρ c, edge_tgt_at1 m ρ c, W5_main_arg2 m ρ c, y0_value m ρ c]
  rfl

theorem bias_at6 (c : Dev nD) :
    (V6 (F := Ideal) m ρ c main_v45 : Row) = asRow (m ((c : Thread nD τ).loc main_arg9)) := by
  show StableHlo.after hostOps3 _ (Proc.devRef .tc main_v45) = _
  after_results
  exact congrArg asRow (W5_main_arg9 m ρ c)

abbrev h1K (c : Dev nD) : Cert.LibDense.Mat 100000 64 :=
  H1 varK (aggK9 (edgesK m c) (weightsK m c)) (aggK64 (edgesK m c) (weightsK m c)) (inputsK m c)

theorem h1_at7 (c : Dev nD) :
    (W7 (F := Ideal) m ρ c (Proc.devRef .tc main_v46) : S100000x64.Idx → EReal) = h1K m c :=
  ((W7_arr m ρ c 5).trans (Regions.conv3_value (V6 m ρ) c)).trans
    (conv_rows (agg_at6 m ρ c) (y0_at6 m ρ c) (W6_main_arg7 m ρ c) (W6_main_arg8 m ρ c) (bias_at6 m ρ c))

theorem h1_at8 (c : Dev nD) :
    (W8 (F := Ideal) m ρ c (Proc.devRef .tc main_v46) : S100000x64.Idx → EReal) = h1K m c :=
  ((W8_arr m ρ c 0).trans (((dat4 (V7 m ρ) c).arrAt_in 0 rfl _).trans (A_eq4 (V7 m ρ) c 0))).trans (h1_at7 m ρ c)

theorem sum_at8 (c : Dev nD) :
    (W8 (F := Ideal) m ρ c (Proc.devRef .tc main_v47_0) : Row) = rowOf (colsum (h1K m c)) :=
  ((W8_arr m ρ c 1).trans (Regions.stats4_sum (V7 m ρ) c)).trans (congrArg (fun h => rowOf (colsum h)) (h1_at7 m ρ c))

theorem sumsq_at8 (c : Dev nD) :
    (W8 (F := Ideal) m ρ c (Proc.devRef .tc main_v47_1) : Row) = rowOf (colsumsq (h1K m c)) :=
  ((W8_arr m ρ c 2).trans (Regions.stats4_sumsq (V7 m ρ) c)).trans (congrArg (fun h => rowOf (colsumsq h)) (h1_at7 m ρ c))

theorem h1_at9 (c : Dev nD) :
    (V9 (F := Ideal) m ρ c main_v46 : S100000x64.Idx → EReal) = h1K m c := by
  show StableHlo.after hostOps5 _ (Proc.devRef .tc main_v46) = _
  after_results
  exact h1_at8 m ρ c

theorem mean_at9 (c : Dev nD) :
    (V9 (F := Ideal) m ρ c main_v49 : Row) = meanRow (W8 m ρ c (Proc.devRef .tc main_v47_0)) := by
  show StableHlo.after hostOps5 _ (Proc.devRef .tc main_v49) = _
  after_results
  rfl

theorem invstd_at9 (c : Dev nD) :
    (V9 (F := Ideal) m ρ c main_v56 : Row)
      = invstdRow (W8 m ρ c (Proc.devRef .tc main_v47_0)) (W8 m ρ c (Proc.devRef .tc main_v47_1)) := by
  show StableHlo.after hostOps5 _ (Proc.devRef .tc main_v56) = _
  after_results
  rfl

theorem gamma_at9 (c : Dev nD) :
    (V9 (F := Ideal) m ρ c main_v57 : Row) = asRow (m ((c : Thread nD τ).loc main_arg15)) := by
  show StableHlo.after hostOps5 _ (Proc.devRef .tc main_v57) = _
  after_results
  exact congrArg asRow (W8_main_arg15 m ρ c)

theorem beta_at9 (c : Dev nD) :
    (V9 (F := Ideal) m ρ c main_v58 : Row) = asRow (m ((c : Thread nD τ).loc main_arg16)) := by
  show StableHlo.after hostOps5 _ (Proc.devRef .tc main_v58) = _
  after_results
  exact congrArg asRow (W8_main_arg16 m ρ c)

end LayerB

open LayerB

theorem y1_value (c : Dev nD) :
    (W10 (F := Ideal) m ρ c (Proc.devRef .tc main_v59) : S100000x64.Idx → EReal)
      = Y1 varK (aggK9 (edgesK m c) (weightsK m c)) (aggK64 (edgesK m c) (weightsK m c)) (inputsK m c) :=
  ((W10_arr m ρ c 5).trans (Regions.bn5_value (V9 m ρ) c)).trans
    (bn_rows (h1_at9 m ρ c) (sum_at8 m ρ c) (sumsq_at8 m ρ c) (mean_at9 m ρ c) (invstd_at9 m ρ c) (gamma_at9 m ρ c)
      (beta_at9 m ρ c))

end Cert.KernelIdeal.Chain

end
-- ==== Proof.RegMlp8Pay.lean ====
import proofs.«419311_j30124900614317_1_alg».proof.Proof.Gen.KernelIdeal.Skeleton
import proofs.«419311_j30124900614317_1_alg».proof.Proof.Spec
import proofs.«419311_j30124900614317_1_alg».proof.Proof.LibDense

noncomputable section

namespace Cert.KernelIdeal.Regions.Mlp8

open Idealize.ShloMosaic Idealize.ShloMosaic.ValueIdx
open Cert.KernelIdeal Cert.KernelIdeal.Gen
open Cert.LibDense (aff relu kernel_layer kernel_relu)

-- Two products into zero, each plus a bias row, a rectifier between; a reshape to the same shape and a change of float format move nothing.
theorem pay_eq (x : FVec Ideal S1024x64 .f32) (w1 : FVec Ideal S64x64 .f32) (b1 : FVec Ideal S1x64 .f32)
    (w2 : FVec Ideal S64x6 .f32) (b2 : FVec Ideal S1x6 .f32) :
    k8_pay1 (F := Ideal) x w1 b1 w2 b2
      = Cert.GraphNet.mlp x w1 (fun j => b1 (ix2 (0 : Fin 1) j)) w2 (fun j => b2 (ix2 (0 : Fin 1) j)) := by
  unfold k8_pay1 Cert.GraphNet.mlp
  simp only [shapeCast_self]
  refine (kernel_layer _ rfl _ _ _ _).trans (congrArg (fun y => aff y w2 fun j => b2 (ix2 (0 : Fin 1) j)) ?_)
  exact (kernel_relu _).trans (congrArg relu (kernel_layer _ rfl _ _ _ _))

end Cert.KernelIdeal.Regions.Mlp8

end
-- ==== Proof.RegMlp8.lean ====
import proofs.«419311_j30124900614317_1_alg».proof.Proof.Gen.KernelIdeal.Frame
import proofs.«419311_j30124900614317_1_alg».proof.Proof.RegMlp8Pay

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

namespace Mlp8

theorem hz : (![0, 0] : Fin 2 → Nat) = fun _ => 0 := funext fun a => by fin_cases a <;> rfl

-- Every window's block index is 0 on both axes, so each block is its whole array, element for element.
theorem idx_zero : ∀ (t : Fin cfg8.N) (w : Fin 6) (a : Fin (cfg8.win w).shape.rank), (cfg8.win w).index t a = 0 :=
  (by decide +kernel : ∀ (t : Fin grid8.N) (w : Fin 6) (a : Fin (cfg8.win w).shape.rank), (cfg8.win w).index t a = 0)

variable (c : Dev nD) (t : Fin cfg8.N)

theorem blk0 : (iblk8 (F := Ideal) V c 0 t : S1024x64.Idx → EReal) = V c main_v82 := funext fun y =>
  congrArg (V c main_v82) (funext fun a => Fin.ext (win8_0.rect_emb_val_of_index_zero t a (idx_zero t 0 a) y))

theorem blk1 : (iblk8 (F := Ideal) V c 1 t : S64x64.Idx → EReal) = V c main_arg17 := funext fun y =>
  congrArg (V c main_arg17) (funext fun a => Fin.ext (win8_1.rect_emb_val_of_index_zero t a (idx_zero t 1 a) y))

theorem blk2 : (iblk8 (F := Ideal) V c 2 t : S1x64.Idx → EReal) = V c main_v83 := funext fun y =>
  congrArg (V c main_v83) (funext fun a => Fin.ext (win8_2.rect_emb_val_of_index_zero t a (idx_zero t 2 a) y))

theorem blk3 : (iblk8 (F := Ideal) V c 3 t : S64x6.Idx → EReal) = V c main_arg19 := funext fun y =>
  congrArg (V c main_arg19) (funext fun a => Fin.ext (win8_3.rect_emb_val_of_index_zero t a (idx_zero t 3 a) y))

theorem blk4 : (iblk8 (F := Ideal) V c 4 t : S1x6.Idx → EReal) = V c main_v84 := funext fun y =>
  congrArg (V c main_v84) (funext fun a => Fin.ext (win8_4.rect_emb_val_of_index_zero t a (idx_zero t 4 a) y))

theorem emb5 (y : S1024x6.Idx) : ((cfg8.win 5).blk t).view.emb y = y :=
  funext fun a => Fin.ext (win8_5.rect_emb_val_of_index_zero t a (idx_zero t 5 a) y)

abbrev head : S1024x6.Idx → EReal :=
  Cert.GraphNet.mlp (V c main_v82 : S1024x64.Idx → EReal) (V c main_arg17 : S64x64.Idx → EReal)
    (fun j => (V c main_v83 : S1x64.Idx → EReal) (ix2 (0 : Fin 1) j))
    (V c main_arg19 : S64x6.Idx → EReal)
    (fun j => (V c main_v84 : S1x6.Idx → EReal) (ix2 (0 : Fin 1) j))

-- The one point's output block is the head of the arrays the region finds.
theorem flushed_eq : (dat8 (F := Ideal) V c).flushed 5 t = ((cfg8.win 5).blk t).view.read (Elt Ideal) (head V c) := by
  show (cfg8.win 5).cut (grid8.coords t) ((dat8 (F := Ideal) V c).after 5 t) = _
  rw [after8_5]
  unfold out8_5
  rw [View.canon_unit_zero hz]
  simp only [View.ld_unit_zero (S := S1024x64) hz, View.ld_unit_zero (S := S64x64) hz, View.ld_unit_zero (S := S1x64) hz,
    View.ld_unit_zero (S := S64x6) hz, View.ld_unit_zero (S := S1x6) hz]
  rw [blk0, blk1, blk2, blk3, blk4, pay_eq]
  exact funext fun y => (congrArg _ (emb5 t y)).symm

theorem cover (i : S1024x6.Idx) : ∃ t : Fin cfg8.N, (cfg8.win 5).flush t = true ∧ i ∈ ((cfg8.win 5).blk t).view.set :=
  ⟨t8_0, flush8_5 t8_0, (congrArg (· ∈ _) (emb5 t8_0 i)).mp (View.emb_mem_set _ i)⟩

end Mlp8

theorem mlp8_value (c : Dev nD) :
    ((dat8 (F := Ideal) V c).arrAt 5 cfg8.N : S1024x6.Idx → EReal)
      = Cert.GraphNet.mlp (V c main_v82 : S1024x64.Idx → EReal) (V c main_arg17 : S64x64.Idx → EReal)
          (fun j => (V c main_v83 : S1x64.Idx → EReal) (ix2 (0 : Fin 1) j))
          (V c main_arg19 : S64x6.Idx → EReal)
          (fun j => (V c main_v84 : S1x6.Idx → EReal) (ix2 (0 : Fin 1) j)) :=
  (dat8 (F := Ideal) V c).arrAt_eq_of_cover 5 (Mlp8.head V c) (fun t _ => Mlp8.flushed_eq V c t) Mlp8.cover

end Cert.KernelIdeal.Regions

end
-- ==== Proof.KChainTail.lean ====
import proofs.«419311_j30124900614317_1_alg».proof.Proof.RegMlp8
import proofs.«419311_j30124900614317_1_alg».proof.Proof.KArgs
import proofs.«419311_j30124900614317_1_alg».proof.Proof.KHostReads

noncomputable section

namespace Cert.KernelIdeal.Chain

open Idealize.ShloMosaic Idealize.ShloMosaic.TcCoe Idealize.ShloMosaic.ValueIdx
open Cert.KernelIdeal Cert.KernelIdeal.Gen
open Cert.GraphNet (inputsK)

section Host
variable (V : Valuation τ sig (Elt Ideal))

theorem after8_v82 :
    (StableHlo.after (hostOps8 (F := Ideal)) V (Proc.devRef .tc main_v82) : S1024x64.Idx → EReal)
      = Reads.pooledK (V (Proc.devRef .tc main_v76_0)) (V (Proc.devRef .tc main_v76_1)) := by
  after_results
  rfl

theorem after8_v83 :
    (StableHlo.after (hostOps8 (F := Ideal)) V (Proc.devRef .tc main_v83) : S1x64.Idx → EReal)
      = Reads.asRow (V (Proc.devRef .tc main_arg18)) := by
  after_results
  rfl

theorem after8_v84 :
    (StableHlo.after (hostOps8 (F := Ideal)) V (Proc.devRef .tc main_v84) : S1x6.Idx → EReal)
      = Reads.asRow6 (V (Proc.devRef .tc main_arg20)) := by
  after_results
  rfl

end Host

variable (m : (ℓ : Loc nD τ sig) → Buf (Elt Ideal) ℓ) (ρ : Dev nD → PrngReg)

-- The head region reads the per-graph means and the head's weights and biases of the arguments.
theorem tail_value (c : Dev nD) (H : S100000x64.Idx → EReal)
    (hS : (W14 (F := Ideal) m ρ c (Proc.devRef .tc main_v76_0) : S1024x64.Idx → EReal)
        = Cert.GraphNet.poolSum H (inputsK m c).batch)
    (hC : (W14 (F := Ideal) m ρ c (Proc.devRef .tc main_v76_1) : S1x1024.Idx → EReal)
        = Cert.GraphNet.rowOf (Cert.GraphNet.poolCnt (G := 1024) (inputsK m c).batch)) :
    (W16 (F := Ideal) m ρ c (Proc.devRef .tc main_v85) : S1024x6.Idx → EReal)
      = Cert.GraphNet.mlp (Cert.GraphNet.pooled H (inputsK m c).batch) (inputsK m c).wl1 (inputsK m c).bl1
          (inputsK m c).wl2 (inputsK m c).bl2 := by
  have a82 : (V15 (F := Ideal) m ρ c main_v82 : S1024x64.Idx → EReal)
      = Cert.GraphNet.pooled H (inputsK m c).batch :=
    (after8_v82 (W14 (F := Ideal) m ρ c)).trans (by rw [hS, hC, Reads.pooledK_pool])
  have a83 : (fun j => (V15 (F := Ideal) m ρ c main_v83 : S1x64.Idx → EReal) (ix2 (0 : Fin 1) j))
      = (inputsK m c).bl1 := funext fun j =>
    (congrFun (after8_v83 (W14 (F := Ideal) m ρ c)) _).trans (by rw [Reads.asRow_apply, W14_main_arg18]; rfl)
  have a84 : (fun j => (V15 (F := Ideal) m ρ c main_v84 : S1x6.Idx → EReal) (ix2 (0 : Fin 1) j))
      = (inputsK m c).bl2 := funext fun j =>
    (congrFun (after8_v84 (W14 (F := Ideal) m ρ c)) _).trans (by rw [Reads.asRow6_apply, W14_main_arg20]; rfl)
  have a17 : (V15 (F := Ideal) m ρ c main_arg17 : S64x64.Idx → EReal) = (inputsK m c).wl1 := W15_main_arg17 m ρ c
  have a19 : (V15 (F := Ideal) m ρ c main_arg19 : S64x6.Idx → EReal) = (inputsK m c).wl2 := W15_main_arg19 m ρ c
  refine ((W16_arr m ρ c 5).trans (Regions.mlp8_value (V15 (F := Ideal) m ρ) c)).trans ?_
  rw [a82, a17, a19, a83, a84]

end Cert.KernelIdeal.Chain

end
-- ==== Proof.KChainC.lean ====
import proofs.«419311_j30124900614317_1_alg».proof.Proof.RegConv6
import proofs.«419311_j30124900614317_1_alg».proof.Proof.RegPool7
import proofs.«419311_j30124900614317_1_alg».proof.Proof.KChainB
import proofs.«419311_j30124900614317_1_alg».proof.Proof.KChainTail

noncomputable section

namespace Cert.KernelIdeal.Chain

open Idealize.ShloMosaic Idealize.ShloMosaic.TcCoe Idealize.ShloMosaic.ValueIdx
open Cert.KernelIdeal Cert.KernelIdeal.Gen
open Cert.GraphNet (inputsK edgesK weightsK aggK9 aggK64 varK)
open Cert.GraphNet (rowOf Y1 H2 poolSum poolCnt)
open Cert.KernelIdeal.Chain.Reads

variable (m : (ℓ : Loc nD τ sig) → Buf (Elt Ideal) ℓ) (ρ : Dev nD → PrngReg)

namespace Layer2

open LayerB (edge_src_at1 edge_tgt_at1)

theorem y1_at11 (c : Dev nD) :
    (V11 (F := Ideal) m ρ c main_v59 : S100000x64.Idx → EReal)
      = Y1 varK (aggK9 (edgesK m c) (weightsK m c)) (aggK64 (edgesK m c) (weightsK m c)) (inputsK m c) := by
  show StableHlo.after hostOps6 _ (Proc.devRef .tc main_v59) = _
  after_results
  exact y1_value m ρ c

theorem agg_at11 (c : Dev nD) :
    (V11 (F := Ideal) m ρ c main_v72 : S100000x64.Idx → EReal)
      = aggK64 (edgesK m c) (weightsK m c)
          (Y1 varK (aggK9 (edgesK m c) (weightsK m c)) (aggK64 (edgesK m c) (weightsK m c)) (inputsK m c)) := by
  show StableHlo.after hostOps6 _ (Proc.devRef .tc main_v72) = _
  after_results_simp
  rw [W10_main_v1 m ρ c, W10_main_v3 m ρ c, edge_src_at1 m ρ c, edge_tgt_at1 m ρ c, W10_main_arg2 m ρ c, y1_value m ρ c]
  rfl

theorem bias_at11 (c : Dev nD) :
    (V11 (F := Ideal) m ρ c main_v73 : Row) = asRow (m ((c : Thread nD τ).loc main_arg12)) := by
  show StableHlo.after hostOps6 _ (Proc.devRef .tc main_v73) = _
  after_results
  exact congrArg asRow (W10_main_arg12 m ρ c)

theorem h2_value (c : Dev nD) :
    (W12 (F := Ideal) m ρ c (Proc.devRef .tc main_v74) : S100000x64.Idx → EReal)
      = H2 varK (aggK9 (edgesK m c) (weightsK m c)) (aggK64 (edgesK m c) (weightsK m c)) (inputsK m c) :=
  ((W12_arr m ρ c 5).trans (Regions.conv6_value (V11 m ρ) c)).trans
    (conv_rows (agg_at11 m ρ c) (y1_at11 m ρ c) (W11_main_arg10 m ρ c) (W11_main_arg11 m ρ c) (bias_at11 m ρ c))

theorem h2_at13 (c : Dev nD) :
    (V13 (F := Ideal) m ρ c main_v74 : S100000x64.Idx → EReal)
      = H2 varK (aggK9 (edgesK m c) (weightsK m c)) (aggK64 (edgesK m c) (weightsK m c)) (inputsK m c) := by
  show StableHlo.after hostOps7 _ (Proc.devRef .tc main_v74) = _
  after_results
  exact h2_value m ρ c

theorem batch_value (c : Dev nD) :
    (fun r => (V13 (F := Ideal) m ρ c main_v75 : IVec S100000x1 32) (ix2 r (0 : Fin 1))) = (inputsK m c).batch := by
  have h : (V13 (F := Ideal) m ρ c main_v75 : IVec S100000x1 32)
      = batchCol (m ((c : Thread nD τ).loc main_arg3)) := by
    show StableHlo.after hostOps7 _ (Proc.devRef .tc main_v75) = _
    after_results
    exact congrArg batchCol (W12_main_arg3 m ρ c)
  exact funext fun r => (congrFun h _).trans (batchCol_apply _ r 0)

theorem W14_v76_0 (c : Dev nD) :
    (W14 (F := Ideal) m ρ c (Proc.devRef .tc main_v76_0) : S1024x64.Idx → EReal)
      = poolSum (H2 varK (aggK9 (edgesK m c) (weightsK m c)) (aggK64 (edgesK m c) (weightsK m c)) (inputsK m c))
          (inputsK m c).batch :=
  ((W14_arr m ρ c 2).trans (Regions.pool7_sum (V13 m ρ) c)).trans
    (congrArg₂ (poolSum (G := 1024)) (h2_at13 m ρ c) (batch_value m ρ c))

theorem W14_v76_1 (c : Dev nD) :
    (W14 (F := Ideal) m ρ c (Proc.devRef .tc main_v76_1) : S1x1024.Idx → EReal)
      = rowOf (poolCnt (G := 1024) (inputsK m c).batch) :=
  ((W14_arr m ρ c 3).trans (Regions.pool7_cnt (V13 m ρ) c)).trans
    (congrArg (fun b => rowOf (poolCnt (G := 1024) b)) (batch_value m ρ c))

end Layer2

theorem result_value (c : Dev nD) :
    (W16 (F := Ideal) m ρ c (Proc.devRef .tc main_v85) : S1024x6.Idx → EReal)
      = Cert.GraphNet.out varK (aggK9 (edgesK m c) (weightsK m c)) (aggK64 (edgesK m c) (weightsK m c)) (inputsK m c) :=
  tail_value m ρ c _ (Layer2.W14_v76_0 m ρ c) (Layer2.W14_v76_1 m ρ c)

end Cert.KernelIdeal.Chain

end
-- ==== Proof.RInputs.lean ====
import proofs.«419311_j30124900614317_1_alg».proof.ReferenceIdeal
import proofs.«419311_j30124900614317_1_alg».proof.Proof.Spec

noncomputable section

namespace Cert.GraphNet

open Idealize.ShloMosaic Idealize.ShloMosaic.ValueIdx
open Cert.ReferenceIdeal

variable (m : (ℓ : Loc nD τ sig) → Buf (Elt Ideal) ℓ) (c : Dev nD)

def vecR {k : Nat} (v : (⟨1, ![k]⟩ : Shape).Idx → EReal) (j : Fin k) : EReal := v (ix1 j)

def edgesR : IVec S2x1600000 32 := m ((c.tc : Thread nD τ).loc main_arg1)
def weightsR : S1600000.Idx → EReal := m ((c.tc : Thread nD τ).loc main_arg2)

def inputsR : Inputs where
  x := m ((c.tc : Thread nD τ).loc main_arg0)
  batch := fun r => (m ((c.tc : Thread nD τ).loc main_arg3) : IVec S100000 32) (ix1 r)
  wrel0 := m ((c.tc : Thread nD τ).loc main_arg4)
  wroot0 := m ((c.tc : Thread nD τ).loc main_arg5)
  b0 := vecR (m ((c.tc : Thread nD τ).loc main_arg6))
  wrel1 := m ((c.tc : Thread nD τ).loc main_arg7)
  wroot1 := m ((c.tc : Thread nD τ).loc main_arg8)
  b1 := vecR (m ((c.tc : Thread nD τ).loc main_arg9))
  wrel2 := m ((c.tc : Thread nD τ).loc main_arg10)
  wroot2 := m ((c.tc : Thread nD τ).loc main_arg11)
  b2 := vecR (m ((c.tc : Thread nD τ).loc main_arg12))
  g0 := vecR (m ((c.tc : Thread nD τ).loc main_arg13))
  be0 := vecR (m ((c.tc : Thread nD τ).loc main_arg14))
  g1 := vecR (m ((c.tc : Thread nD τ).loc main_arg15))
  be1 := vecR (m ((c.tc : Thread nD τ).loc main_arg16))
  wl1 := m ((c.tc : Thread nD τ).loc main_arg17)
  bl1 := vecR (m ((c.tc : Thread nD τ).loc main_arg18))
  wl2 := m ((c.tc : Thread nD τ).loc main_arg19)
  bl2 := vecR (m ((c.tc : Thread nD τ).loc main_arg20))

end Cert.GraphNet

end
-- ==== Proof.RefStages.lean ====
import proofs.«419311_j30124900614317_1_alg».proof.ReferenceIdeal
import proofs.«419311_j30124900614317_1_alg».proof.Proof.Gen.ReferenceIdeal
import proofs.«419311_j30124900614317_1_alg».proof.Proof.Spec
import proofs.«419311_j30124900614317_1_alg».proof.Proof.RInputs
import proofs.«419311_j30124900614317_1_alg».proof.Proof.Agg
import proofs.«419311_j30124900614317_1_alg».proof.Proof.LibDense
import proofs.«419311_j30124900614317_1_alg».proof.Proof.LibScatterGather
import Idealize.ShloMosaic.Lib.ValueLayout
import Idealize.ShloMosaic.Lib.IdealHost

noncomputable section

namespace Cert.ReferenceIdeal.Hand

open Idealize.ShloMosaic Idealize.ShloMosaic.ValueIdx
open Cert.ReferenceIdeal
open Cert.ReferenceIdeal.Facts₀
open Cert.GraphNet (inputsR edgesR weightsR aggR9 aggR64 varR vecR)

abbrev FA (s : Shape) : Type := FVec Ideal s .f32

def srcCol (ei : IVec S2x1600000 32) : IVec S1600000 32 :=
  shapeCast S1600000 (extractStridedSlice S1x1600000 ![0, 0] ei slices_S2x1600000_S1x1600000_0_0) shapeCasts_S1x1600000_S1600000
def tgtCol (ei : IVec S2x1600000 32) : IVec S1600000 32 :=
  shapeCast S1600000 (extractStridedSlice S1x1600000 ![1, 0] ei slices_S2x1600000_S1x1600000_1_0) shapeCasts_S1x1600000_S1600000

def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

def rowsOf (v : FA S64) : FA S100000x64 :=
  broadcastInDim S100000x64 ![0, 1] bcast_S1x64_S100000x64_0_1 (broadcastInDim S1x64 ![1] bcast_S64_S1x64_1 v)

def dense {k : Nat} (a x : FA ⟨2, ![100000, k]⟩) (wr wo : FA ⟨2, ![k, 64]⟩) (b : FA S64) : FA S100000x64 :=
  addf (addf (Host.dotGeneral (DotDims.plain 100000 k 64) none a wr) (rowsOf b)) (Host.dotGeneral (DotDims.plain 100000 k 64) none x wo)

def colSums (h : FA S100000x64) : FA S64 :=
  Host.reduceAdd h (constant S_ .f32 0x00000000#32) reducesTo_S100000x64_S64_d0 h_S_

def colMean (h : FA S100000x64) : FA S64 :=
  Host.divf (colSums h) (broadcastInDim S64 ![] bcast_S_S64 (constant S_ .f32 0x47C35000#32))

def devs (h : FA S100000x64) : FA S100000x64 :=
  subf h (broadcastInDim S100000x64 ![0, 1] bcast_S1x64_S100000x64_0_1
    (Host.divf (broadcastInDim S1x64 ![1] bcast_S64_S1x64_1 (colSums h))
      (broadcastInDim S1x64 ![] bcast_S_S1x64 (constant S_ .f32 0x47C35000#32))))

def varDen (dd : IVec S_ 32) : FA S_ :=
  subf (constant S_ .f32 0x47C35000#32) (sitofp .f32 dd)

def varOf (h : FA S100000x64) (dd : IVec S_ 32) : FA S64 :=
  select (broadcastInDim S64 ![] bcast_S_S64 (cmpf .ogt (varDen dd) (constant S_ .f32 0x00000000#32)))
    (Host.divf (colSums (mulf (devs h) (devs h))) (broadcastInDim S64 ![] bcast_S_S64 (varDen dd)))
    (broadcastInDim S64 ![] bcast_S_S64 (constant S_ .f32 0x7FC00000#32))

def bnOf (h : FA S100000x64) (mu va g be : FA S64) : FA S100000x64 :=
  maximumf
    (addf (mulf (mulf (subf h (rowsOf mu))
        (rowsOf (Host.rsqrt (addf va (broadcastInDim S64 ![] bcast_S_S64 (constant S_ .f32 0x3727C5AC#32))))))
        (rowsOf g)) (rowsOf be))
    (broadcastInDim S100000x64 ![] bcast_S_S100000x64 (constant S_ .f32 0x00000000#32))

def bnStage (h : FA S100000x64) (g be : FA S64) : FA S100000x64 :=
  bnOf h (colMean h) (varOf h (constantI S_ 32 0#32)) g be

def poolSums (h : FA S100000x64) (batch : IVec S100000 32) : FA S1024x64 :=
  Host.scatterAdd scatter_S1024x64_S100000x1_S100000x64_1_0_0_1
    (broadcastInDim S1024x64 ![] bcast_S_S1024x64 (constant S_ .f32 0x00000000#32))
    (broadcastInDim S100000x1 ![0] bcast_S100000_S100000x1_0 batch) h

def poolCounts (batch : IVec S100000 32) : FA S1024 :=
  Host.scatterAdd scatter_S1024_S100000x1_S100000_n_0_0_1
    (broadcastInDim S1024 ![] bcast_S_S1024 (constant S_ .f32 0x00000000#32))
    (broadcastInDim S100000x1 ![0] bcast_S100000_S100000x1_0 batch)
    (broadcastInDim S100000 ![] bcast_S_S100000 (constant S_ .f32 0x3F800000#32))

def poolStage (h : FA S100000x64) (batch : IVec S100000 32) : FA S1024x64 :=
  Host.divf (poolSums h batch)
    (broadcastInDim S1024x64 ![0, 1] bcast_S1024x1_S1024x64_0_1 (broadcastInDim S1024x1 ![0] bcast_S1024_S1024x1_0
      (maximumf (poolCounts batch) (broadcastInDim S1024 ![] bcast_S_S1024 (constant S_ .f32 0x3F800000#32)))))

def headStage (x : FA S1024x64) (w1 : FA S64x64) (b1 : FA S64) (w2 : FA S64x6) (b2 : FA S6) : FA S1024x6 :=
  addf (Host.dotGeneral dot_S1024x64_S64x6_S1024x6_1_0_0_1_n_n none
      (maximumf (addf (Host.dotGeneral dot_S1024x64_S64x64_S1024x64_1_0_0_1_n_n none x w1)
          (broadcastInDim S1024x64 ![0, 1] bcast_S1x64_S1024x64_0_1 (broadcastInDim S1x64 ![1] bcast_S64_S1x64_1 b1)))
        (broadcastInDim S1024x64 ![] bcast_S_S1024x64 (constant S_ .f32 0x00000000#32))) w2)
    (broadcastInDim S1024x6 ![0, 1] bcast_S1x6_S1024x6_0_1 (broadcastInDim S1x6 ![1] bcast_S6_S1x6_1 b2))

section Values
variable (m : (ℓ : Loc nD τ sig) → Buf (Elt Ideal) ℓ) (c : Dev nD)

def rH0 : FA S100000x64 :=
  dense (aggR9 (m ((c.tc : Thread nD τ).loc main_arg1)) (m ((c.tc : Thread nD τ).loc main_arg2)) (m ((c.tc : Thread nD τ).loc main_arg0)))
    (m ((c.tc : Thread nD τ).loc main_arg0)) (m ((c.tc : Thread nD τ).loc main_arg4)) (m ((c.tc : Thread nD τ).loc main_arg5))
    (m ((c.tc : Thread nD τ).loc main_arg6))
def rY0 : FA S100000x64 :=
  bnStage (rH0 m c) (m ((c.tc : Thread nD τ).loc main_arg13)) (m ((c.tc : Thread nD τ).loc main_arg14))
def rH1 : FA S100000x64 :=
  dense (aggR64 (m ((c.tc : Thread nD τ).loc main_arg1)) (m ((c.tc : Thread nD τ).loc main_arg2)) (rY0 m c))
    (rY0 m c) (m ((c.tc : Thread nD τ).loc main_arg7)) (m ((c.tc : Thread nD τ).loc main_arg8))
    (m ((c.tc : Thread nD τ).loc main_arg9))
def rY1 : FA S100000x64 :=
  bnStage (rH1 m c) (m ((c.tc : Thread nD τ).loc main_arg15)) (m ((c.tc : Thread nD τ).loc main_arg16))
def rH2 : FA S100000x64 :=
  dense (aggR64 (m ((c.tc : Thread nD τ).loc main_arg1)) (m ((c.tc : Thread nD τ).loc main_arg2)) (rY1 m c))
    (rY1 m c) (m ((c.tc : Thread nD τ).loc main_arg10)) (m ((c.tc : Thread nD τ).loc main_arg11))
    (m ((c.tc : Thread nD τ).loc main_arg12))

end Values

def refOut (m : (ℓ : Loc nD τ sig) → Buf (Elt Ideal) ℓ) (c : Dev nD) : S1024x6.Idx → EReal :=
  headStage (poolStage (rH2 m c) (m ((c.tc : Thread nD τ).loc main_arg3)))
    (m ((c.tc : Thread nD τ).loc main_arg17)) (m ((c.tc : Thread nD τ).loc main_arg18))
    (m ((c.tc : Thread nD τ).loc main_arg19)) (m ((c.tc : Thread nD τ).loc main_arg20))

section Reads

open Cert.GraphNet (conv colsum mean invstd bnWith nodes eps)

theorem rowsOf_apply (v : FA S64) (r : Fin 100000) (j : Fin 64) : rowsOf v (ix2 r j) = v (ix1 j) := by
  unfold rowsOf
  rw [broadcastInDim_oneRow_apply, Cert.LibDense.row_of_vector]

-- Either dense part is a·W_rel + b + x·W_root: the two differ in the inner dimension only.
theorem dense_read {k : Nat} (a x : FA ⟨2, ![100000, k]⟩) (wr wo : FA ⟨2, ![k, 64]⟩) (b : FA S64) :
    dense a x wr wo b = conv a x wr wo (vecR b) := by
  unfold dense rowsOf
  rw [Cert.LibDense.host_layer _ rfl]
  funext i
  obtain ⟨r, q, rfl⟩ : ∃ (r : Fin 100000) (q : Fin 64), i = ix2 r q := ⟨i 0, i 1, eq_ix2 i⟩
  rw [addf_apply, StackMember.dotGeneral_plain_apply]
  rfl

theorem reduces_rows : S100000x64.Reduces [0] S64 := by decide

theorem colSums_apply (h : FA S100000x64) (j : Fin 64) : colSums h (ix1 j) = colsum h j := by
  unfold colSums
  rw [hostReduceAdd_apply, Ideal.hostReduceAdd_single reducesTo_S100000x64_S64_d0 reduces_rows,
    constant_apply, Ideal.ofBits_zero_f32, zero_add]
  show ∑ k : Fin 100000, h (reduces_rows.lift (ix1 j) k) = ∑ k : Fin 100000, h (ix2 k j)
  refine Finset.sum_congr rfl fun k _ => congrArg h (funext fun ax => Fin.ext ?_)
  match ax with
  | ⟨0, _⟩ => rfl
  | ⟨1, _⟩ => rfl

theorem colMean_apply (h : FA S100000x64) (j : Fin 64) : colMean h (ix1 j) = mean h j := by
  unfold colMean
  rw [hostDivf_apply, colSums_apply, broadcastInDim_scalar_apply, constant_apply]
  rfl

theorem devs_apply (h : FA S100000x64) (r : Fin 100000) (j : Fin 64) : devs h (ix2 r j) = h (ix2 r j) - mean h j := by
  unfold devs
  rw [subf_apply, broadcastInDim_oneRow_apply, hostDivf_apply, Cert.LibDense.row_of_vector, broadcastInDim_scalar_apply, constant_apply, colSums_apply]
  rfl

theorem nodes_pos : (0 : EReal) < nodes := by
  have e : nodes = ((100000 : ℝ) : EReal) := by
    simp [nodes, Ideal.ofBits, Ideal.ieee, -EReal.coe_mul] <;> norm_num
  rw [e]
  exact_mod_cast (by norm_num : (0 : ℝ) < 100000)

theorem varDen_zero : varDen (constantI S_ 32 0#32) ix0 = nodes := by
  unfold varDen
  rw [subf_apply, constant_apply, sitofp_apply, constantI_apply]
  show nodes - (((0#32 : BitVec 32).toInt : ℝ) : EReal) = nodes
  rw [show (0#32 : BitVec 32).toInt = 0 by decide, Int.cast_zero, EReal.coe_zero, sub_zero]

theorem varOf_apply (h : FA S100000x64) (j : Fin 64) : varOf h (constantI S_ 32 0#32) (ix1 j) = varR h j := by
  unfold varOf
  rw [select_apply, broadcastInDim_scalar_apply, cmpf_apply, varDen_zero, constant_apply, Ideal.ofBits_zero_f32]
  have hpos : (0 : EReal) < nodes := nodes_pos
  have hc : FloatOps.cmpf (F := Ideal) (φ := .f32) .ogt nodes 0 = 1#1 := by
    show BitVec.ofBool (decide ((0 : EReal) < nodes)) = 1#1
    rw [decide_eq_true hpos]; rfl
  rw [hc, select_one]
  rw [hostDivf_apply, colSums_apply, broadcastInDim_scalar_apply, varDen_zero]
  unfold varR colsum
  refine congrArg (Ideal.div · nodes) (Finset.sum_congr rfl fun r _ => ?_)
  rw [mulf_apply, devs_apply]

theorem bnStage_read (h : FA S100000x64) (g be : FA S64) :
    bnStage h g be = bnWith varR h (vecR g) (vecR be) := by
  funext i
  obtain ⟨r, j, rfl⟩ : ∃ (r : Fin 100000) (j : Fin 64), i = ix2 r j := ⟨i 0, i 1, eq_ix2 i⟩
  unfold bnStage bnOf
  rw [maximumf_apply, addf_apply, mulf_apply, mulf_apply, subf_apply, rowsOf_apply, rowsOf_apply, rowsOf_apply, rowsOf_apply,
    broadcastInDim_scalar_apply, constant_apply, Ideal.ofBits_zero_f32, colMean_apply]
  show max ((h (ix2 r j) - mean h j)
      * Ideal.rsqrt (varOf h (constantI S_ 32 0#32) (ix1 j)
          + broadcastInDim S64 ![] bcast_S_S64 (constant (F := Ideal) S_ .f32 0x3727C5AC#32) (ix1 j))
      * g (ix1 j) + be (ix1 j)) 0 = _
  rw [varOf_apply, broadcastInDim_scalar_apply, constant_apply]
  rfl

end Reads

section Chain
variable (m : (ℓ : Loc nD τ sig) → Buf (Elt Ideal) ℓ) (c : Dev nD)

open Cert.GraphNet (H0 Y0 H1 Y1 H2)

theorem rH2_read :
    rH2 m c = H2 varR (aggR9 (edgesR m c) (weightsR m c)) (aggR64 (edgesR m c) (weightsR m c)) (inputsR m c) := by
  simp only [rH2, rY1, rH1, rY0, rH0, dense_read, bnStage_read]
  rfl

end Chain

end Cert.ReferenceIdeal.Hand

end
-- ==== Proof.RefRunOps.lean ====
import proofs.«419311_j30124900614317_1_alg».proof.ReferenceIdeal
import proofs.«419311_j30124900614317_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 (extractStridedSlice S1x1600000 ![0, 0] · slices_S2x1600000_S1x1600000_0_0),
    StableHlo.reshape main_v0 main_v1 rfl shapeCasts_S1x1600000_S1600000,
    StableHlo.unary main_arg1 main_v2 (extractStridedSlice S1x1600000 ![1, 0] · slices_S2x1600000_S1x1600000_1_0),
    StableHlo.reshape main_v2 main_v3 rfl shapeCasts_S1x1600000_S1600000,
    StableHlo.nullary main_c (constantI S_ 32 0#32),
    StableHlo.unary main_c main_v4 (broadcastInDim S1600000 ![] bcast_S_S1600000),
    StableHlo.binary main_v1 main_v4 main_v5 (cmpi .slt),
    StableHlo.nullary main_c_0 (constantI S_ 32 100000#32),
    StableHlo.unary main_c_0 main_v6 (broadcastInDim S1600000 ![] bcast_S_S1600000),
    StableHlo.binary main_v1 main_v6 main_v7 addi,
    StableHlo.ternary main_v5 main_v7 main_v1 main_v8 select,
    StableHlo.unary main_v8 main_v9 (broadcastInDim S1600000x1 ![0] bcast_S1600000_S1600000x1_0),
    StableHlo.binary main_arg0 main_v9 main_v10 (fun x i => Host.gather gather_S100000x9_S1600000x1_S1600000x9_1_0_n_n_0_1_19 x i),
    StableHlo.unary main_arg2 main_v11 (broadcastInDim S1600000x1 ![0] bcast_S1600000_S1600000x1_0),
    StableHlo.unary main_v11 main_v12 (broadcastInDim S1600000x9 ![0, 1] bcast_S1600000x1_S1600000x9_0_1),
    StableHlo.binary main_v10 main_v12 main_v13 mulf,
    StableHlo.nullary main_cst (constant S_ .f32 0x00000000#32),
    StableHlo.unary main_cst main_v14 (broadcastInDim S100000x9 ![] bcast_S_S100000x9),
    StableHlo.unary main_v3 main_v15 (broadcastInDim S1600000x1 ![0] bcast_S1600000_S1600000x1_0),
    StableHlo.ternary main_v14 main_v15 main_v13 main_v16 (fun x i u => Host.scatterAdd scatter_S100000x9_S1600000x1_S1600000x9_1_0_0_1 x i u),
    StableHlo.binary main_v16 main_arg4 main_v17 (fun l r => Host.dotGeneral dot_S100000x9_S9x64_S100000x64_1_0_0_1_n_n none l r),
    StableHlo.unary main_arg6 main_v18 (broadcastInDim S1x64 ![1] bcast_S64_S1x64_1),
    StableHlo.unary main_v18 main_v19 (broadcastInDim S100000x64 ![0, 1] bcast_S1x64_S100000x64_0_1),
    StableHlo.binary main_v17 main_v19 main_v20 addf,
    StableHlo.binary main_arg0 main_arg5 main_v21 (fun l r => Host.dotGeneral dot_S100000x9_S9x64_S100000x64_1_0_0_1_n_n none l r),
    StableHlo.binary main_v20 main_v21 main_v22 addf,
    StableHlo.nullary main_cst_1 (constant S_ .f32 0x00000000#32),
    StableHlo.binary main_v22 main_cst_1 main_v23 (fun x v => Host.reduceAdd x v reducesTo_S100000x64_S64_d0 h_S_),
    StableHlo.nullary main_cst_2 (constant S_ .f32 0x47C35000#32),
    StableHlo.unary main_cst_2 main_v24 (broadcastInDim S64 ![] bcast_S_S64),
    StableHlo.binary main_v23 main_v24 main_v25 Host.divf,
    StableHlo.nullary main_c_3 (constantI S_ 32 0#32) ]

abbrev ops1 : List (HloOp τ sig (Elt F)) :=
  [ StableHlo.TRef.nullary main_call0.cst (constant S_ .f32 0x00000000#32),
    StableHlo.TRef.binary (StableHlo.TRef.of main_v22 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (StableHlo.TRef.of main_v22 : StableHlo.TRef sig ⟨S100000x64, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v25 main_v27 (broadcastInDim S1x64 ![1] bcast_S64_S1x64_1),
    StableHlo.unary main_v27 main_v28 (broadcastInDim S100000x64 ![0, 1] bcast_S1x64_S100000x64_0_1),
    StableHlo.binary main_v22 main_v28 main_v29 subf,
    StableHlo.nullary main_cst_4 (constant S_ .f32 0x3727C5AC#32),
    StableHlo.unary main_cst_4 main_v30 (broadcastInDim S64 ![] bcast_S_S64),
    StableHlo.binary main_v26 main_v30 main_v31 addf,
    StableHlo.unary main_v31 main_v32 Host.rsqrt,
    StableHlo.unary main_v32 main_v33 (broadcastInDim S1x64 ![1] bcast_S64_S1x64_1),
    StableHlo.unary main_v33 main_v34 (broadcastInDim S100000x64 ![0, 1] bcast_S1x64_S100000x64_0_1),
    StableHlo.binary main_v29 main_v34 main_v35 mulf,
    StableHlo.unary main_arg13 main_v36 (broadcastInDim S1x64 ![1] bcast_S64_S1x64_1),
    StableHlo.unary main_v36 main_v37 (broadcastInDim S100000x64 ![0, 1] bcast_S1x64_S100000x64_0_1),
    StableHlo.binary main_v35 main_v37 main_v38 mulf,
    StableHlo.unary main_arg14 main_v39 (broadcastInDim S1x64 ![1] bcast_S64_S1x64_1),
    StableHlo.unary main_v39 main_v40 (broadcastInDim S100000x64 ![0, 1] bcast_S1x64_S100000x64_0_1),
    StableHlo.binary main_v38 main_v40 main_v41 addf,
    StableHlo.TRef.nullary main_call1.cst (constant S_ .f32 0x00000000#32),
    StableHlo.TRef.unary main_call1.cst main_call1.v0 (broadcastInDim S100000x64 ![] bcast_S_S100000x64),
    StableHlo.TRef.binary (StableHlo.TRef.of main_v41 : StableHlo.TRef sig ⟨S100000x64, .f32⟩) main_call1.v0 main_call1.v1 maximumf ]

abbrev ops2 : List (HloOp τ sig (Elt F)) :=
  [ StableHlo.nullary main_c_5 (constantI S_ 32 0#32),
    StableHlo.unary main_c_5 main_v43 (broadcastInDim S1600000 ![] bcast_S_S1600000),
    StableHlo.binary main_v1 main_v43 main_v44 (cmpi .slt),
    StableHlo.nullary main_c_6 (constantI S_ 32 100000#32),
    StableHlo.unary main_c_6 main_v45 (broadcastInDim S1600000 ![] bcast_S_S1600000),
    StableHlo.binary main_v1 main_v45 main_v46 addi,
    StableHlo.ternary main_v44 main_v46 main_v1 main_v47 select,
    StableHlo.unary main_v47 main_v48 (broadcastInDim S1600000x1 ![0] bcast_S1600000_S1600000x1_0),
    StableHlo.binary main_v42 main_v48 main_v49 (fun x i => Host.gather gather_S100000x64_S1600000x1_S1600000x64_1_0_n_n_0_1_164 x i),
    StableHlo.unary main_arg2 main_v50 (broadcastInDim S1600000x1 ![0] bcast_S1600000_S1600000x1_0) ]

abbrev ops3 : List (HloOp τ sig (Elt F)) :=
  [ StableHlo.unary main_v50 main_v51 (broadcastInDim S1600000x64 ![0, 1] bcast_S1600000x1_S1600000x64_0_1),
    StableHlo.binary main_v49 main_v51 main_v52 mulf,
    StableHlo.nullary main_cst_7 (constant S_ .f32 0x00000000#32),
    StableHlo.unary main_cst_7 main_v53 (broadcastInDim S100000x64 ![] bcast_S_S100000x64),
    StableHlo.unary main_v3 main_v54 (broadcastInDim S1600000x1 ![0] bcast_S1600000_S1600000x1_0),
    StableHlo.ternary main_v53 main_v54 main_v52 main_v55 (fun x i u => Host.scatterAdd scatter_S100000x64_S1600000x1_S1600000x64_1_0_0_1 x i u),
    StableHlo.binary main_v55 main_arg7 main_v56 (fun l r => Host.dotGeneral dot_S100000x64_S64x64_S100000x64_1_0_0_1_n_n none l r),
    StableHlo.unary main_arg9 main_v57 (broadcastInDim S1x64 ![1] bcast_S64_S1x64_1),
    StableHlo.unary main_v57 main_v58 (broadcastInDim S100000x64 ![0, 1] bcast_S1x64_S100000x64_0_1),
    StableHlo.binary main_v56 main_v58 main_v59 addf,
    StableHlo.binary main_v42 main_arg8 main_v60 (fun l r => Host.dotGeneral dot_S100000x64_S64x64_S100000x64_1_0_0_1_n_n none l r),
    StableHlo.binary main_v59 main_v60 main_v61 addf,
    StableHlo.nullary main_cst_8 (constant S_ .f32 0x00000000#32),
    StableHlo.binary main_v61 main_cst_8 main_v62 (fun x v => Host.reduceAdd x v reducesTo_S100000x64_S64_d0 h_S_),
    StableHlo.nullary main_cst_9 (constant S_ .f32 0x47C35000#32),
    StableHlo.unary main_cst_9 main_v63 (broadcastInDim S64 ![] bcast_S_S64),
    StableHlo.binary main_v62 main_v63 main_v64 Host.divf,
    StableHlo.nullary main_c_10 (constantI S_ 32 0#32) ]

abbrev ops4 : List (HloOp τ sig (Elt F)) :=
  [ StableHlo.TRef.nullary main_call2.cst (constant S_ .f32 0x00000000#32),
    StableHlo.TRef.binary (StableHlo.TRef.of main_v61 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (StableHlo.TRef.of main_v61 : StableHlo.TRef sig ⟨S100000x64, .f32⟩) main_call2.v4 main_call2.v5 subf,
    StableHlo.TRef.binary main_call2.v5 main_call2.v5 main_call2.v6 mulf,
    StableHlo.TRef.unary (StableHlo.TRef.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v64 main_v66 (broadcastInDim S1x64 ![1] bcast_S64_S1x64_1),
    StableHlo.unary main_v66 main_v67 (broadcastInDim S100000x64 ![0, 1] bcast_S1x64_S100000x64_0_1),
    StableHlo.binary main_v61 main_v67 main_v68 subf,
    StableHlo.nullary main_cst_11 (constant S_ .f32 0x3727C5AC#32),
    StableHlo.unary main_cst_11 main_v69 (broadcastInDim S64 ![] bcast_S_S64),
    StableHlo.binary main_v65 main_v69 main_v70 addf,
    StableHlo.unary main_v70 main_v71 Host.rsqrt,
    StableHlo.unary main_v71 main_v72 (broadcastInDim S1x64 ![1] bcast_S64_S1x64_1),
    StableHlo.unary main_v72 main_v73 (broadcastInDim S100000x64 ![0, 1] bcast_S1x64_S100000x64_0_1),
    StableHlo.binary main_v68 main_v73 main_v74 mulf,
    StableHlo.unary main_arg15 main_v75 (broadcastInDim S1x64 ![1] bcast_S64_S1x64_1),
    StableHlo.unary main_v75 main_v76 (broadcastInDim S100000x64 ![0, 1] bcast_S1x64_S100000x64_0_1),
    StableHlo.binary main_v74 main_v76 main_v77 mulf,
    StableHlo.unary main_arg16 main_v78 (broadcastInDim S1x64 ![1] bcast_S64_S1x64_1),
    StableHlo.unary main_v78 main_v79 (broadcastInDim S100000x64 ![0, 1] bcast_S1x64_S100000x64_0_1),
    StableHlo.binary main_v77 main_v79 main_v80 addf,
    StableHlo.TRef.nullary main_call3.cst (constant S_ .f32 0x00000000#32),
    StableHlo.TRef.unary main_call3.cst main_call3.v0 (broadcastInDim S100000x64 ![] bcast_S_S100000x64),
    StableHlo.TRef.binary (StableHlo.TRef.of main_v80 : StableHlo.TRef sig ⟨S100000x64, .f32⟩) main_call3.v0 main_call3.v1 maximumf ]

abbrev ops5 : List (HloOp τ sig (Elt F)) :=
  [ StableHlo.nullary main_c_12 (constantI S_ 32 0#32),
    StableHlo.unary main_c_12 main_v82 (broadcastInDim S1600000 ![] bcast_S_S1600000),
    StableHlo.binary main_v1 main_v82 main_v83 (cmpi .slt),
    StableHlo.nullary main_c_13 (constantI S_ 32 100000#32),
    StableHlo.unary main_c_13 main_v84 (broadcastInDim S1600000 ![] bcast_S_S1600000),
    StableHlo.binary main_v1 main_v84 main_v85 addi,
    StableHlo.ternary main_v83 main_v85 main_v1 main_v86 select,
    StableHlo.unary main_v86 main_v87 (broadcastInDim S1600000x1 ![0] bcast_S1600000_S1600000x1_0),
    StableHlo.binary main_v81 main_v87 main_v88 (fun x i => Host.gather gather_S100000x64_S1600000x1_S1600000x64_1_0_n_n_0_1_164 x i),
    StableHlo.unary main_arg2 main_v89 (broadcastInDim S1600000x1 ![0] bcast_S1600000_S1600000x1_0),
    StableHlo.unary main_v89 main_v90 (broadcastInDim S1600000x64 ![0, 1] bcast_S1600000x1_S1600000x64_0_1),
    StableHlo.binary main_v88 main_v90 main_v91 mulf,
    StableHlo.nullary main_cst_14 (constant S_ .f32 0x00000000#32),
    StableHlo.unary main_cst_14 main_v92 (broadcastInDim S100000x64 ![] bcast_S_S100000x64),
    StableHlo.unary main_v3 main_v93 (broadcastInDim S1600000x1 ![0] bcast_S1600000_S1600000x1_0),
    StableHlo.ternary main_v92 main_v93 main_v91 main_v94 (fun x i u => Host.scatterAdd scatter_S100000x64_S1600000x1_S1600000x64_1_0_0_1 x i u),
    StableHlo.binary main_v94 main_arg10 main_v95 (fun l r => Host.dotGeneral dot_S100000x64_S64x64_S100000x64_1_0_0_1_n_n none l r),
    StableHlo.unary main_arg12 main_v96 (broadcastInDim S1x64 ![1] bcast_S64_S1x64_1),
    StableHlo.unary main_v96 main_v97 (broadcastInDim S100000x64 ![0, 1] bcast_S1x64_S100000x64_0_1),
    StableHlo.binary main_v95 main_v97 main_v98 addf,
    StableHlo.binary main_v81 main_arg11 main_v99 (fun l r => Host.dotGeneral dot_S100000x64_S64x64_S100000x64_1_0_0_1_n_n none l r),
    StableHlo.binary main_v98 main_v99 main_v100 addf ]

abbrev ops6 : List (HloOp τ sig (Elt F)) :=
  [ StableHlo.nullary main_cst_15 (constant S_ .f32 0x00000000#32),
    StableHlo.unary main_cst_15 main_v101 (broadcastInDim S1024x64 ![] bcast_S_S1024x64) ]

abbrev ops7 : List (HloOp τ sig (Elt F)) :=
  [ StableHlo.unary main_arg3 main_v102 (broadcastInDim S100000x1 ![0] bcast_S100000_S100000x1_0),
    StableHlo.ternary main_v101 main_v102 main_v100 main_v103 (fun x i u => Host.scatterAdd scatter_S1024x64_S100000x1_S100000x64_1_0_0_1 x i u),
    StableHlo.nullary main_cst_16 (constant S_ .f32 0x3F800000#32),
    StableHlo.unary main_cst_16 main_v104 (broadcastInDim S100000 ![] bcast_S_S100000),
    StableHlo.nullary main_cst_17 (constant S_ .f32 0x00000000#32),
    StableHlo.unary main_cst_17 main_v105 (broadcastInDim S1024 ![] bcast_S_S1024),
    StableHlo.unary main_arg3 main_v106 (broadcastInDim S100000x1 ![0] bcast_S100000_S100000x1_0),
    StableHlo.ternary main_v105 main_v106 main_v104 main_v107 (fun x i u => Host.scatterAdd scatter_S1024_S100000x1_S100000_n_0_0_1 x i u),
    StableHlo.nullary main_cst_18 (constant S_ .f32 0x3F800000#32),
    StableHlo.unary main_cst_18 main_v108 (broadcastInDim S1024 ![] bcast_S_S1024),
    StableHlo.binary main_v107 main_v108 main_v109 maximumf,
    StableHlo.unary main_v109 main_v110 (broadcastInDim S1024x1 ![0] bcast_S1024_S1024x1_0),
    StableHlo.unary main_v110 main_v111 (broadcastInDim S1024x64 ![0, 1] bcast_S1024x1_S1024x64_0_1),
    StableHlo.binary main_v103 main_v111 main_v112 Host.divf,
    StableHlo.binary main_v112 main_arg17 main_v113 (fun l r => Host.dotGeneral dot_S1024x64_S64x64_S1024x64_1_0_0_1_n_n none l r),
    StableHlo.unary main_arg18 main_v114 (broadcastInDim S1x64 ![1] bcast_S64_S1x64_1),
    StableHlo.unary main_v114 main_v115 (broadcastInDim S1024x64 ![0, 1] bcast_S1x64_S1024x64_0_1),
    StableHlo.binary main_v113 main_v115 main_v116 addf,
    StableHlo.TRef.nullary main_call4.cst (constant S_ .f32 0x00000000#32),
    StableHlo.TRef.unary main_call4.cst main_call4.v0 (broadcastInDim S1024x64 ![] bcast_S_S1024x64),
    StableHlo.TRef.binary (StableHlo.TRef.of main_v116 : StableHlo.TRef sig ⟨S1024x64, .f32⟩) main_call4.v0 main_call4.v1 maximumf,
    StableHlo.binary main_v117 main_arg19 main_v118 (fun l r => Host.dotGeneral dot_S1024x64_S64x6_S1024x6_1_0_0_1_n_n none l r),
    StableHlo.unary main_arg20 main_v119 (broadcastInDim S1x6 ![1] bcast_S6_S1x6_1),
    StableHlo.unary main_v119 main_v120 (broadcastInDim S1024x6 ![0, 1] bcast_S1x6_S1024x6_0_1),
    StableHlo.binary main_v118 main_v120 main_v121 addf ]

abbrev ops : List (HloOp τ sig (Elt F)) := ops0 ++ (ops1 ++ (ops2 ++ (ops3 ++ (ops4 ++ (ops5 ++ (ops6 ++ (ops7)))))))

set_option maxHeartbeats 4000000 in
theorem main_part0_eq (c : Dev nD) : main_part0 (F := F) c = (seq ops0 >>= fun _ => seq ops1 >>= fun _ => seq ops2) := by
  simp only [main_part0, fn_var.body, fn_where.body, fn_relu.body, seq, bind_assoc, pure_bind]
  rfl

set_option maxHeartbeats 4000000 in
theorem main_part1_eq (c : Dev nD) : main_part1 (F := F) c = (seq ops3 >>= fun _ => seq ops4 >>= fun _ => seq ops5 >>= fun _ => seq ops6) := by
  simp only [main_part1, fn_var.body, fn_where.body, fn_relu.body, seq, bind_assoc, pure_bind]
  rfl

set_option maxHeartbeats 4000000 in
theorem main_part2_eq (c : Dev nD) : main_part2 (F := F) c = (seq ops7) := by
  simp only [main_part2, fn_relu_0.body, seq, bind_assoc, pure_bind]
  rfl

theorem main_eq (c : Dev nD) : main (F := F) c = seq ops := by
  simp only [ops, seq_append, main, main_part0_eq, main_part1_eq, main_part2_eq, bind_assoc]

theorem scopedRefs_eq : (Finset.univ.filter fun b : Ref sig .tc => b.isScoped) = ∅ := by decide
theorem scopedSems_eq : (Finset.univ.filter fun sm : SemLoc sig => sm.isScoped .tc) = ∅ := by decide

-- What the run asks of an operation: it stays inside the run's buffers, determines its results, and writes none of the buffers A.
def Good (A : List (Ref sig .tc)) (op : HloOp τ sig (Elt F)) : Prop :=
  op.bufs ⊆ tcRefs τ sig ∧ op.fresh = ∅ ∧ ∀ r ∈ A, Proc.devRef (τ := τ) .tc r ∉ op.writes

section Builders
variable {A : List (Ref sig .tc)} {x a b c y : Ref sig .tc}

theorem good_of {op : HloOp τ sig (Elt F)} (hb : op.bufs ⊆ tcRefs τ sig) (hf : op.fresh = ∅)
    (hw : op.writes = {Proc.devRef .tc y}) (h : y ∉ A) : Good A op :=
  ⟨hb, hf, fun r hr hm => by
    rw [hw, Finset.mem_singleton] at hm
    exact h (Proc.devRef_injective _ hm ▸ hr)⟩

theorem good_nullary (v hy) (h : y ∉ A) : Good A (nullary (τ := τ) (Val := Elt F) y v hy) := good_of (nullary_bufs_sub ..) rfl rfl h
theorem good_unary (f hx hy) (h : y ∉ A) : Good A (unary (τ := τ) (Val := Elt F) x y f hx hy) := good_of (unary_bufs_sub ..) rfl rfl h
theorem good_binary (f ha hb hy) (h : y ∉ A) : Good A (binary (τ := τ) (Val := Elt F) a b y f ha hb hy) := good_of (binary_bufs_sub ..) rfl rfl h
theorem good_ternary (f hc ha hb hy) (h : y ∉ A) : Good A (ternary (τ := τ) (Val := Elt F) c a b y f hc ha hb hy) := good_of (ternary_bufs_sub ..) rfl rfl h
theorem good_reshape (he hn hx hy) (h : y ∉ A) : Good A (reshape (τ := τ) (Val := Elt F) x y he hn hx hy) := good_of (reshape_bufs_sub ..) rfl rfl h

end Builders

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem lists_good : [ops0, ops1, ops2, ops3, ops4, ops5, ops6, ops7].Forall fun l : List (HloOp τ sig (Elt F)) => l.Forall (Good args) := by
  simp (disch := decide) only [ops0, ops1, ops2, ops3, ops4, ops5, ops6, ops7, List.Forall, good_nullary, good_unary, good_binary,
    good_ternary, good_reshape, and_self]

theorem ops_good : (ops : List (HloOp τ sig (Elt F))).Forall (Good args) := by
  simp only [ops, List.forall_append]
  exact lists_good

-- A buffer that no operation of a list writes keeps its contents through the list.
theorem keep {l : List (HloOp τ sig (Elt F))} {A : List (Ref sig .tc)} (h : l.Forall (Good A)) (V : Valuation τ sig (Elt F))
    {r : Ref sig .tc} (hr : r ∈ A) : after l V (Proc.devRef .tc r) = V (Proc.devRef .tc r) :=
  after_of_forall_not_mem l V fun op hop => (List.forall_iff_forall_mem.mp h op hop).2.2 r hr

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_good.imp fun _ g => g.1) m ρ
    (fun _ op h => (List.forall_iff_forall_mem.mp ops_good op h).2.1)

end Cert.ReferenceIdeal.Hand

end
-- ==== Proof.RefRun.lean ====
import proofs.«419311_j30124900614317_1_alg».proof.ReferenceIdeal
import proofs.«419311_j30124900614317_1_alg».proof.Proof.Gen.ReferenceIdeal
import proofs.«419311_j30124900614317_1_alg».proof.Proof.RefStages
import proofs.«419311_j30124900614317_1_alg».proof.Proof.RefRunOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.GraphNet (aggR9)

-- The aggregation of a table of 64 columns with the source and target columns given: aggR64 at the edge list's own two.
def aggAt64 (src tgt : IVec S1600000 32) (ew : FA S1600000) (t : FA S100000x64) : FA S100000x64 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 tgt)
    (mulf (Host.gather gather_S100000x64_S1600000x1_S1600000x64_1_0_n_n_0_1_164 t
            (broadcastInDim S1600000x1 ![0] bcast_S1600000_S1600000x1_0 (wrapIdx src)))
      (broadcastInDim S1600000x64 ![0, 1] bcast_S1600000x1_S1600000x64_0_1
        (broadcastInDim S1600000x1 ![0] bcast_S1600000_S1600000x1_0 ew)))

section Stages
variable (V : Valuation τ sig (Elt Ideal))

theorem s0_v1 : after ops0 V (main_v1 : DevRef τ sig) = srcCol (V (main_arg1 : DevRef τ sig)) := by
  simp only [ops0]; after_results_simp; rfl
theorem s0_v3 : after ops0 V (main_v3 : DevRef τ sig) = tgtCol (V (main_arg1 : DevRef τ sig)) := by
  simp only [ops0]; after_results_simp; rfl
theorem s0_c3 : after ops0 V (main_c_3 : DevRef τ sig) = constantI S_ 32 0#32 := by
  simp only [ops0]; after_results_simp
set_option maxHeartbeats 1000000 in
theorem s0_v22 : after ops0 V (main_v22 : DevRef τ sig)
    = dense (aggR9 (V (main_arg1 : DevRef τ sig)) (V (main_arg2 : DevRef τ sig)) (V (main_arg0 : DevRef τ sig))) (V (main_arg0 : DevRef τ sig))
        (V (main_arg4 : DevRef τ sig)) (V (main_arg5 : DevRef τ sig)) (V (main_arg6 : DevRef τ sig)) := by
  simp only [ops0]; after_results_simp; rfl
set_option maxHeartbeats 1000000 in
theorem s0_v25 : after ops0 V (main_v25 : DevRef τ sig) = colMean (after ops0 V (main_v22 : DevRef τ sig)) := by
  simp only [ops0]; after_results_simp; rfl

set_option maxHeartbeats 1000000 in
theorem s1_v42 : after ops1 V (main_v42 : DevRef τ sig)
    = bnOf (V (main_v22 : DevRef τ sig)) (V (main_v25 : DevRef τ sig)) (varOf (V (main_v22 : DevRef τ sig)) (V (main_c_3 : DevRef τ sig))) (V (main_arg13 : DevRef τ sig)) (V (main_arg14 : DevRef τ sig)) := by
  simp only [ops1]; after_results_simp; rfl
theorem s1_v1 : after ops1 V (main_v1 : DevRef τ sig) = V (main_v1 : DevRef τ sig) := by simp only [ops1]; after_results_simp
theorem s1_v3 : after ops1 V (main_v3 : DevRef τ sig) = V (main_v3 : DevRef τ sig) := by simp only [ops1]; after_results_simp

set_option maxHeartbeats 1000000 in
theorem s2_v61 : after ops3 (after ops2 V) (main_v61 : DevRef τ sig)
    = dense (aggAt64 (V (main_v1 : DevRef τ sig)) (V (main_v3 : DevRef τ sig)) (V (main_arg2 : DevRef τ sig)) (V (main_v42 : DevRef τ sig))) (V (main_v42 : DevRef τ sig))
        (V (main_arg7 : DevRef τ sig)) (V (main_arg8 : DevRef τ sig)) (V (main_arg9 : DevRef τ sig)) := by
  simp only [ops2, ops3]; after_results_simp; rfl
set_option maxHeartbeats 1000000 in
theorem s2_v64 : after ops3 (after ops2 V) (main_v64 : DevRef τ sig) = colMean (after ops3 (after ops2 V) (main_v61 : DevRef τ sig)) := by
  simp only [ops2, ops3]; after_results_simp; rfl
theorem s2_c10 : after ops3 (after ops2 V) (main_c_10 : DevRef τ sig) = constantI S_ 32 0#32 := by
  simp only [ops2, ops3]; after_results_simp
theorem s2_v1 : after ops3 (after ops2 V) (main_v1 : DevRef τ sig) = V (main_v1 : DevRef τ sig) := by simp only [ops2, ops3]; after_results_simp
theorem s2_v3 : after ops3 (after ops2 V) (main_v3 : DevRef τ sig) = V (main_v3 : DevRef τ sig) := by simp only [ops2, ops3]; after_results_simp

set_option maxHeartbeats 1000000 in
theorem s3_v81 : after ops4 V (main_v81 : DevRef τ sig)
    = bnOf (V (main_v61 : DevRef τ sig)) (V (main_v64 : DevRef τ sig)) (varOf (V (main_v61 : DevRef τ sig)) (V (main_c_10 : DevRef τ sig))) (V (main_arg15 : DevRef τ sig)) (V (main_arg16 : DevRef τ sig)) := by
  simp only [ops4]; after_results_simp; rfl
theorem s3_v1 : after ops4 V (main_v1 : DevRef τ sig) = V (main_v1 : DevRef τ sig) := by simp only [ops4]; after_results_simp
theorem s3_v3 : after ops4 V (main_v3 : DevRef τ sig) = V (main_v3 : DevRef τ sig) := by simp only [ops4]; after_results_simp

set_option maxHeartbeats 1000000 in
theorem s4_v100 : after ops5 V (main_v100 : DevRef τ sig)
    = dense (aggAt64 (V (main_v1 : DevRef τ sig)) (V (main_v3 : DevRef τ sig)) (V (main_arg2 : DevRef τ sig)) (V (main_v81 : DevRef τ sig))) (V (main_v81 : DevRef τ sig))
        (V (main_arg10 : DevRef τ sig)) (V (main_arg11 : DevRef τ sig)) (V (main_arg12 : DevRef τ sig)) := by
  simp only [ops5]; after_results_simp; rfl

set_option maxHeartbeats 1000000 in
theorem s5_v121 : after ops7 (after ops6 V) (main_v121 : DevRef τ sig)
    = headStage (poolStage (V (main_v100 : DevRef τ sig)) (V (main_arg3 : DevRef τ sig))) (V (main_arg17 : DevRef τ sig)) (V (main_arg18 : DevRef τ sig))
        (V (main_arg19 : DevRef τ sig)) (V (main_arg20 : DevRef τ sig)) := by
  simp only [ops6, ops7]; after_results_simp; rfl

end Stages

section Walk
variable (m : (ℓ : Loc nD τ sig) → Buf (Elt Ideal) ℓ) (c : Dev nD)

def w1 : Valuation τ sig (Elt Ideal) := after ops0 (launchContents m c)
def w2 : Valuation τ sig (Elt Ideal) := after ops1 (w1 m c)
def w3 : Valuation τ sig (Elt Ideal) := after ops3 (after ops2 (w2 m c))
def w4 : Valuation τ sig (Elt Ideal) := after ops4 (w3 m c)
def w5 : Valuation τ sig (Elt Ideal) := after ops5 (w4 m c)

-- A valuation that still holds the launch contents at the arguments; each list keeps it so, writing none of them.
def Kept (V : Valuation τ sig (Elt Ideal)) : Prop :=
  ∀ r ∈ args, V (Proc.devRef .tc r) = m ((c.tc : Thread nD τ).loc r)

variable {m c} in
theorem Kept.step {V : Valuation τ sig (Elt Ideal)} (h : Kept m c V) {l : List (HloOp τ sig (Elt Ideal))}
    (hl : l.Forall (Good args)) : Kept m c (after l V) := fun r hr => (keep hl V hr).trans (h r hr)

theorem kept0 : Kept m c (launchContents m c) := fun _ _ => rfl
theorem kept1 : Kept m c (w1 m c) := (kept0 m c).step lists_good.1
theorem kept2 : Kept m c (w2 m c) := (kept1 m c).step lists_good.2.1
theorem kept3 : Kept m c (w3 m c) := ((kept2 m c).step lists_good.2.2.1).step lists_good.2.2.2.1
theorem kept4 : Kept m c (w4 m c) := (kept3 m c).step lists_good.2.2.2.2.1
theorem kept5 : Kept m c (w5 m c) := (kept4 m c).step lists_good.2.2.2.2.2.1

theorem w1_v1 : w1 m c (main_v1 : DevRef τ sig) = srcCol (m ((c.tc : Thread nD τ).loc main_arg1)) := s0_v1 _
theorem w1_v3 : w1 m c (main_v3 : DevRef τ sig) = tgtCol (m ((c.tc : Thread nD τ).loc main_arg1)) := s0_v3 _
theorem w2_v1 : w2 m c (main_v1 : DevRef τ sig) = srcCol (m ((c.tc : Thread nD τ).loc main_arg1)) := (s1_v1 _).trans (w1_v1 m c)
theorem w2_v3 : w2 m c (main_v3 : DevRef τ sig) = tgtCol (m ((c.tc : Thread nD τ).loc main_arg1)) := (s1_v3 _).trans (w1_v3 m c)
theorem w4_v1 : w4 m c (main_v1 : DevRef τ sig) = srcCol (m ((c.tc : Thread nD τ).loc main_arg1)) := (s3_v1 _).trans ((s2_v1 _).trans (w2_v1 m c))
theorem w4_v3 : w4 m c (main_v3 : DevRef τ sig) = tgtCol (m ((c.tc : Thread nD τ).loc main_arg1)) := (s3_v3 _).trans ((s2_v3 _).trans (w2_v3 m c))

theorem w1_v22 : w1 m c (main_v22 : DevRef τ sig) = rH0 m c := s0_v22 _
theorem w1_v25 : w1 m c (main_v25 : DevRef τ sig) = colMean (rH0 m c) := (s0_v25 _).trans (congrArg colMean (w1_v22 m c))
theorem w1_c3 : w1 m c (main_c_3 : DevRef τ sig) = constantI S_ 32 0#32 := s0_c3 _

theorem w2_v42 : w2 m c (main_v42 : DevRef τ sig) = rY0 m c := by
  refine (s1_v42 _).trans ?_
  rw [w1_v22, w1_v25, w1_c3, kept1 m c main_arg13 (by decide), kept1 m c main_arg14 (by decide)]
  rfl

theorem w3_v61 : w3 m c (main_v61 : DevRef τ sig) = rH1 m c := by
  refine (s2_v61 _).trans ?_
  rw [w2_v1, w2_v3, w2_v42, kept2 m c main_arg2 (by decide), kept2 m c main_arg7 (by decide), kept2 m c main_arg8 (by decide), kept2 m c main_arg9 (by decide)]
  rfl
theorem w3_v64 : w3 m c (main_v64 : DevRef τ sig) = colMean (rH1 m c) := (s2_v64 _).trans (congrArg colMean (w3_v61 m c))
theorem w3_c10 : w3 m c (main_c_10 : DevRef τ sig) = constantI S_ 32 0#32 := s2_c10 _

theorem w4_v81 : w4 m c (main_v81 : DevRef τ sig) = rY1 m c := by
  refine (s3_v81 _).trans ?_
  rw [w3_v61, w3_v64, w3_c10, kept3 m c main_arg15 (by decide), kept3 m c main_arg16 (by decide)]
  rfl

theorem w5_v100 : w5 m c (main_v100 : DevRef τ sig) = rH2 m c := by
  refine (s4_v100 _).trans ?_
  rw [w4_v1, w4_v3, w4_v81, kept4 m c main_arg2 (by decide), kept4 m c main_arg10 (by decide), kept4 m c main_arg11 (by decide), kept4 m c main_arg12 (by decide)]
  rfl

theorem out_value : after ops (launchContents m c) (main_v121 : DevRef τ sig) = refOut m c := by
  have e : after ops (launchContents m c) = after ops7 (after ops6 (w5 m c)) := by simp only [ops, after_app]; rfl
  rw [e, s5_v121, w5_v100, kept5 m c main_arg3 (by decide), kept5 m c main_arg17 (by decide), kept5 m c main_arg18 (by decide), kept5 m c main_arg19 (by decide), kept5 m c main_arg20 (by decide)]
  rfl

end Walk

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v121) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run (defs (F := Ideal)) _ _).mono (fun r h c =>
      have K : ∀ b ∈ args, r.2.mem ((c.tc : Thread nD τ).loc b) = m ((c.tc : Thread nD τ).loc b) :=
        fun b hb => (h c b).trans ((kept0 m c).step ops_good b hb)
      ⟨(h c main_v121).trans (out_value m c), K _ (by decide), K _ (by decide), K _ (by decide), K _ (by decide), K _ (by decide), K _ (by decide), K _ (by decide), K _ (by decide), K _ (by decide), K _ (by decide), K _ (by decide), K _ (by decide), K _ (by decide), K _ (by decide), K _ (by decide), K _ (by decide), K _ (by decide), K _ (by decide), K _ (by decide), K _ (by decide), K _ (by decide)⟩)
    (run_after m ρ)

end Cert.ReferenceIdeal.Hand

end
-- ==== Proof.RefReadPoolHead.lean ====
import proofs.«419311_j30124900614317_1_alg».proof.Proof.RefStages
import proofs.«419311_j30124900614317_1_alg».proof.Proof.LibDense
import proofs.«419311_j30124900614317_1_alg».proof.Proof.LibScatterGather
import Idealize.ShloMosaic.Lib.ValueLayout
import Idealize.ShloMosaic.Lib.IdealHost

noncomputable section

open scoped BigOperators

namespace Cert.ReferenceIdeal.Hand

open Idealize.ShloMosaic Idealize.ShloMosaic.ValueIdx
open Cert.ReferenceIdeal
open Cert.ReferenceIdeal.Facts₀

section Broadcasts
variable {α : Type}

-- An index along an axis that is kept, or has length one, is the index read there.
theorem val_unless_one {n : Nat} (e : Fin n) : e.val = if n = 1 then 0 else e.val := by
  split
  · have := e.isLt; omega
  · rfl

theorem col_of_vector {n : Nat} (v : (⟨1, ![n]⟩ : Shape).Idx → α)
    (h : (⟨1, ![n]⟩ : Shape).BroadcastsInDim ⟨2, ![n, 1]⟩ ![0]) (e : Fin n) (u : Fin 1) :
    broadcastInDim ⟨2, ![n, 1]⟩ ![0] h v (ix2 e u) = v (ix1 e) := by
  refine broadcastInDim_apply ![0] h v (ix2 e u) (ix1 e) fun a => ?_
  match a with
  | ⟨0, _⟩ => exact val_unless_one e

theorem cols_of_col {a b : Nat} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ => exact val_unless_one p
  | ⟨1, _⟩ => exact (if_pos rfl).symm

end Broadcasts

theorem poolSums_apply (h : FA S100000x64) (b : IVec S100000 32) (g : Fin 1024) (j : Fin 64) :
    poolSums h b (ix2 g j) = Cert.GraphNet.poolSum (G := 1024) h (fun r => b (ix1 r)) (ix2 g j) := by
  unfold poolSums
  rw [Cert.Lib.scatterAdd_rows scatter_S1024x64_S100000x1_S100000x64_1_0_0_1 rfl rfl rfl rfl]
  rw [broadcastInDim_scalar_apply, constant_apply, Ideal.ofBits_zero_f32, zero_add]
  unfold Cert.GraphNet.poolSum
  refine Finset.sum_congr rfl fun e _ => ?_
  rw [col_of_vector]

theorem poolCounts_apply (b : IVec S100000 32) (g : Fin 1024) :
    poolCounts b (ix1 g) = Cert.GraphNet.poolCnt (G := 1024) (fun r => b (ix1 r)) g := by
  unfold poolCounts
  rw [Cert.Lib.scatterAdd_vec scatter_S1024_S100000x1_S100000_n_0_0_1 rfl rfl rfl rfl]
  rw [broadcastInDim_scalar_apply, constant_apply, Ideal.ofBits_zero_f32, zero_add]
  unfold Cert.GraphNet.poolCnt
  refine Finset.sum_congr rfl fun e _ => ?_
  rw [col_of_vector, broadcastInDim_scalar_apply, constant_apply, Ideal.ofBits_one_f32]

theorem poolStage_eq (h : FA S100000x64) (b : IVec S100000 32) :
    poolStage h b = Cert.GraphNet.pooled (G := 1024) h (fun r => b (ix1 r)) := by
  funext i
  obtain ⟨g, j, rfl⟩ : ∃ (g : Fin 1024) (j : Fin 64), i = ix2 g j := ⟨i 0, i 1, eq_ix2 i⟩
  unfold poolStage
  rw [hostDivf_apply, poolSums_apply, cols_of_col, col_of_vector, maximumf_apply, poolCounts_apply,
    broadcastInDim_scalar_apply, constant_apply]
  rfl

theorem headStage_eq_vecR (x : FA S1024x64) (w1 : FA S64x64) (b1 : FA S64) (w2 : FA S64x6) (b2 : FA S6) :
    headStage x w1 b1 w2 b2 = Cert.GraphNet.mlp x w1 (Cert.GraphNet.vecR b1) w2 (Cert.GraphNet.vecR b2) := by
  unfold headStage Cert.GraphNet.mlp
  rw [Cert.LibDense.host_layer dot_S1024x64_S64x64_S1024x64_1_0_0_1_n_n rfl x w1 b1,
    Cert.LibDense.host_relu, Cert.LibDense.host_layer dot_S1024x64_S64x6_S1024x6_1_0_0_1_n_n rfl]
  rfl

end Cert.ReferenceIdeal.Hand

end
-- ==== Proof.RefRead.lean ====
import proofs.«419311_j30124900614317_1_alg».proof.Proof.RefStages
import proofs.«419311_j30124900614317_1_alg».proof.Proof.RefReadPoolHead

noncomputable section

namespace Cert.ReferenceIdeal.Hand

open Idealize.ShloMosaic Idealize.ShloMosaic.ValueIdx
open Cert.ReferenceIdeal
open Cert.GraphNet (inputsR edgesR weightsR aggR9 aggR64 varR)

theorem refOut_read (m : (ℓ : Loc nD τ sig) → Buf (Elt Ideal) ℓ) (c : Dev nD) :
    refOut m c = Cert.GraphNet.out varR (aggR9 (edgesR m c) (weightsR m c)) (aggR64 (edgesR m c) (weightsR m c)) (inputsR m c) := by
  unfold refOut
  rw [rH2_read, poolStage_eq, headStage_eq_vecR]
  rfl

end Cert.ReferenceIdeal.Hand

end
-- ==== Proof.SpecLaws.lean ====
import proofs.«419311_j30124900614317_1_alg».proof.Proof.Spec

noncomputable section

open scoped BigOperators

namespace Cert.GraphNet

open Idealize.ShloMosaic Idealize.ShloMosaic.ValueIdx
open Cert.LibDense (Mat aff relu)

theorem nodes_eq : nodes = ((100000 : ℝ) : EReal) := by
  simp [nodes, Ideal.ofBits, Ideal.ieee, -EReal.coe_mul] <;> norm_num

theorem eps_eq : ∃ e : ℝ, 0 < e ∧ eps = (e : EReal) := by
  refine ⟨10995116 * (2 : ℝ) ^ (-40 : ℤ), by positivity, ?_⟩
  simp [eps, Ideal.ofBits, Ideal.ieee, -EReal.coe_mul] <;> norm_num

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_sq_dev (f : Fin 100000 → ℝ) (m : ℝ) :
    ∑ i : Fin 100000, (f i - m) * (f i - m)
      = ∑ i : Fin 100000, f i * f i - 2 * m * ∑ i : Fin 100000, f i + 100000 * (m * m) := by
  have e : ∀ i, (f i - m) * (f i - m) = f i * f i - 2 * m * f i + m * m := fun i => by ring
  simp only [e]
  rw [Finset.sum_add_distrib, Finset.sum_sub_distrib, ← Finset.mul_sum, Finset.sum_const, Finset.card_univ,
    Fintype.card_fin, nsmul_eq_mul]
  push_cast
  ring

theorem mean_coe (h : Mat 100000 64) (r : (⟨2, ![100000, 64]⟩ : Shape).Idx → ℝ) (hr : ∀ i, h i = (r i : EReal))
    (j : Fin 64) : mean h j = (((∑ i : Fin 100000, r (ix2 i j)) * (1 / 100000) : ℝ) : EReal) := by
  have hn : (100000 : ℝ) ≠ 0 := by norm_num
  unfold mean colsum
  rw [nodes_eq, Ideal.div_coe hn]
  simp only [hr]
  rw [← coe_sum, ← EReal.coe_mul]

theorem varK_eq_varR (h : Mat 100000 64) (hh : RealMat h) : varK h = varR h := by
  funext j
  have hh' : ∀ i, ∃ r : ℝ, h i = (r : EReal) := hh
  choose r hr using hh'
  have hn : (100000 : ℝ) ≠ 0 := by norm_num
  unfold varK varR colsumsq
  rw [mean_coe h r hr j, nodes_eq, Ideal.div_coe hn, Ideal.div_coe hn]
  simp only [hr]
  simp only [← EReal.coe_mul, ← EReal.coe_sub, ← coe_sum]
  congr 1
  rw [sum_sq_dev]
  ring

theorem realMat_conv {n k m : Nat} (a x : Mat n k) (wr wo : Mat k m) (b : Fin m → EReal)
    (ha : RealMat a) (hx : RealMat x) (hwr : RealMat wr) (hwo : RealMat wo) (hb : RealVec b) :
    RealMat (conv a x wr wo b) := by
  intro i
  show IsReal (∑ j : Fin k, a (ix2 (i 0) j) * wr (ix2 j (i 1)) + b (i 1)
    + ∑ q : Fin k, x (ix2 (i 0) q) * wo (ix2 q (i 1)))
  exact ((isReal_sum _ _ fun j _ => (ha _).mul (hwr _)).add (hb _)).add (isReal_sum _ _ fun q _ => (hx _).mul (hwo _))

theorem isReal_mean (h : Mat 100000 64) (hh : RealMat h) (j : Fin 64) : IsReal (mean h j) := by
  have hh' : ∀ i, ∃ r : ℝ, h i = (r : EReal) := hh
  choose r hr using hh'
  exact ⟨_, mean_coe h r hr j⟩

theorem varR_coe (h : Mat 100000 64) (hh : RealMat h) (j : Fin 64) : ∃ v : ℝ, 0 ≤ v ∧ varR h j = (v : EReal) := by
  have hh' : ∀ i, ∃ r : ℝ, h i = (r : EReal) := hh
  choose r hr using hh'
  have hn : (100000 : ℝ) ≠ 0 := by norm_num
  refine ⟨(∑ i : Fin 100000, (r (ix2 i j) - (∑ i : Fin 100000, r (ix2 i j)) * (1 / 100000))
      * (r (ix2 i j) - (∑ i : Fin 100000, r (ix2 i j)) * (1 / 100000))) * (1 / 100000), ?_, ?_⟩
  · exact mul_nonneg (Finset.sum_nonneg fun i _ => mul_self_nonneg _) (by norm_num)
  · unfold varR
    rw [mean_coe h r hr j, nodes_eq, Ideal.div_coe hn]
    simp only [hr]
    simp only [← EReal.coe_mul, ← EReal.coe_sub, ← coe_sum]

theorem isReal_invstd_varR (h : Mat 100000 64) (hh : RealMat h) (j : Fin 64) : IsReal (invstd (varR h) j) := by
  obtain ⟨v, hv, e⟩ := varR_coe h hh j
  obtain ⟨ε, hε, e'⟩ := eps_eq
  have hpos : 0 < v + ε := by linarith
  unfold invstd
  rw [e, e', ← EReal.coe_add, Ideal.rsqrt_coe, if_neg (not_lt.mpr hpos.le), if_neg hpos.ne']
  exact ⟨_, rfl⟩

theorem realMat_bnWith_varR (h : Mat 100000 64) (g be : Fin 64 → EReal) (hh : RealMat h) (hg : RealVec g)
    (hbe : RealVec be) : RealMat (bnWith varR h g be) := by
  intro i
  show IsReal (max ((h i - mean h (i 1)) * invstd (varR h) (i 1) * g (i 1) + be (i 1)) 0)
  exact (((((hh i).sub (isReal_mean h hh _)).mul (isReal_invstd_varR h hh _)).mul (hg _)).add (hbe _)).max isReal_zero

theorem out_varK_eq_varR (A9 : Mat 100000 9 → Mat 100000 9) (A64 : Mat 100000 64 → Mat 100000 64) (p : Inputs)
    (hp : p.Real) (h9 : KeepsReal A9) (h64 : KeepsReal A64) :
    out varK A9 A64 p = out varR A9 A64 p := by
  have r0 : RealMat (H0 A9 p) := realMat_conv _ _ _ _ _ (h9 _ hp.x) hp.x hp.wrel0 hp.wroot0 hp.b0
  have y0 : Y0 varK A9 p = Y0 varR A9 p := by
    unfold Y0 bnWith
    rw [varK_eq_varR _ r0]
  have ry0 : RealMat (Y0 varR A9 p) := realMat_bnWith_varR _ _ _ r0 hp.g0 hp.be0
  have h1 : H1 varK A9 A64 p = H1 varR A9 A64 p := by
    unfold H1
    rw [y0]
  have r1 : RealMat (H1 varR A9 A64 p) := realMat_conv _ _ _ _ _ (h64 _ ry0) ry0 hp.wrel1 hp.wroot1 hp.b1
  have y1 : Y1 varK A9 A64 p = Y1 varR A9 A64 p := by
    unfold Y1 bnWith
    rw [h1, varK_eq_varR _ r1]
  unfold out H2
  rw [y1]

end Cert.GraphNet

end
-- ==== Proof.PreReal.lean ====
import proofs.«419311_j30124900614317_1_alg».proof.Defs
import proofs.«419311_j30124900614317_1_alg».proof.Proof.Gen.KernelIdeal
import proofs.«419311_j30124900614317_1_alg».proof.Proof.Gen.Pre_finite_inputs
import proofs.«419311_j30124900614317_1_alg».proof.Proof.KInputs
import Idealize.ShloMosaic.Lib.ReduceAll

noncomputable section

namespace Cert.GraphNet

open Idealize.ShloMosaic Idealize.ShloMosaic.ValueIdx
open Cert.KernelIdeal

instance : Subsingleton Cert.Pre_finite_inputs.S_.Idx := ⟨fun a b => funext fun d => d.elim0⟩

theorem isReal_of_abs_lt_top (x : EReal) (h : max x (-x) < ⊤) : IsReal x := by
  induction x using EReal.rec with
  | bot => simp at h
  | coe r => exact ⟨r, rfl⟩
  | top => simp at h

theorem inf_word : Ideal.ofBits .f32 0x7F800000#32 = (⊤ : EReal) := by simp [Ideal.ofBits, Ideal.ieee]

theorem real_of_all_finite {s : Shape} {axes : List (Fin s.rank)} (x : FVec Ideal s .f32)
    (hb : Cert.Pre_finite_inputs.S_.BroadcastsInDim s ![]) (hr : s.ReducesTo axes Cert.Pre_finite_inputs.S_)
    (h0 : 0 < Cert.Pre_finite_inputs.S_.numel) (j : Cert.Pre_finite_inputs.S_.Idx)
    (e : Host.reduce IntOp.andi (cmpf .olt (Host.absf x)
          (broadcastInDim s ![] hb (constant (F := Ideal) Cert.Pre_finite_inputs.S_ .f32 0x7F800000#32)))
          (constantI Cert.Pre_finite_inputs.S_ 1 1#1) hr h0 j = 1#1)
    (i : s.Idx) : IsReal (x i) := by
  have hi := Host.reduce_andi_all _ _ hr h0 j e i
  have hlt : max (x i : EReal) (-(x i : EReal)) < ⊤ := by
    have h2 : Ideal.cmp .olt (max (x i : EReal) (-(x i : EReal))) (Ideal.ofBits .f32 0x7F800000#32) = 1#1 := hi
    rw [inf_word] at h2
    unfold Ideal.cmp at h2
    by_contra hn
    simp [hn] at h2
  exact isReal_of_abs_lt_top _ hlt

theorem inputsK_real (m : (ℓ : Loc nD τ sig) → Buf (Elt Ideal) ℓ) (hpre : Cert.Pre_KernelIdeal m) (c : Dev nD) :
    (inputsK m c).Real := by

  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h
  simp only [IntOp.andi_eq_one, and_assoc] at h
  obtain ⟨h0, _, h4, h5, h6, h7, h8, h9, h10, h11, h12, h13, h14, h15, h16, h17, h18, h19, h20⟩ := h
  exact
    { x := fun i => real_of_all_finite _ _ _ _ _ h0 i
      wrel0 := fun i => real_of_all_finite _ _ _ _ _ h4 i
      wroot0 := fun i => real_of_all_finite _ _ _ _ _ h5 i
      b0 := fun j => real_of_all_finite _ _ _ _ _ h6 (ix1 j)
      wrel1 := fun i => real_of_all_finite _ _ _ _ _ h7 i
      wroot1 := fun i => real_of_all_finite _ _ _ _ _ h8 i
      b1 := fun j => real_of_all_finite _ _ _ _ _ h9 (ix1 j)
      wrel2 := fun i => real_of_all_finite _ _ _ _ _ h10 i
      wroot2 := fun i => real_of_all_finite _ _ _ _ _ h11 i
      b2 := fun j => real_of_all_finite _ _ _ _ _ h12 (ix1 j)
      g0 := fun j => real_of_all_finite _ _ _ _ _ h13 (ix1 j)
      be0 := fun j => real_of_all_finite _ _ _ _ _ h14 (ix1 j)
      g1 := fun j => real_of_all_finite _ _ _ _ _ h15 (ix1 j)
      be1 := fun j => real_of_all_finite _ _ _ _ _ h16 (ix1 j)
      wl1 := fun i => real_of_all_finite _ _ _ _ _ h17 i
      bl1 := fun j => real_of_all_finite _ _ _ _ _ h18 (ix1 j)
      wl2 := fun i => real_of_all_finite _ _ _ _ _ h19 i
      bl2 := fun j => real_of_all_finite _ _ _ _ _ h20 (ix1 j) }

theorem weightsK_real (m : (ℓ : Loc nD τ sig) → Buf (Elt Ideal) ℓ) (hpre : Cert.Pre_KernelIdeal m) (c : Dev nD) :
    ∀ e, IsReal (weightsK m c e) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h
  simp only [IntOp.andi_eq_one, and_assoc] at h
  exact fun e => real_of_all_finite _ _ _ _ _ h.2.1 e

end Cert.GraphNet

end
-- ==== Proof.lean ====
import proofs.«419311_j30124900614317_1_alg».proof.Defs
import proofs.«419311_j30124900614317_1_alg».proof.Proof.Gen.Kernel
import proofs.«419311_j30124900614317_1_alg».proof.Proof.Gen.Kernel.Skeleton
import proofs.«419311_j30124900614317_1_alg».proof.Proof.Gen.Kernel.Launch
import proofs.«419311_j30124900614317_1_alg».proof.Proof.Gen.Kernel.Points
import proofs.«419311_j30124900614317_1_alg».proof.Proof.Gen.Kernel.Frame
import proofs.«419311_j30124900614317_1_alg».proof.Proof.Gen.KernelIdeal
import proofs.«419311_j30124900614317_1_alg».proof.Proof.Gen.KernelIdeal.Skeleton
import proofs.«419311_j30124900614317_1_alg».proof.Proof.Gen.KernelIdeal.Launch
import proofs.«419311_j30124900614317_1_alg».proof.Proof.Gen.KernelIdeal.Points
import proofs.«419311_j30124900614317_1_alg».proof.Proof.Gen.KernelIdeal.Frame
import proofs.«419311_j30124900614317_1_alg».proof.Proof.Gen.ReferenceIdeal
import proofs.«419311_j30124900614317_1_alg».proof.Proof.Gen.Pre_finite_inputs
import proofs.«419311_j30124900614317_1_alg».proof.Proof.KernelRun
import proofs.«419311_j30124900614317_1_alg».proof.Proof.KChainC
import proofs.«419311_j30124900614317_1_alg».proof.Proof.RefRun
import proofs.«419311_j30124900614317_1_alg».proof.Proof.RefRead
import proofs.«419311_j30124900614317_1_alg».proof.Proof.SpecLaws
import proofs.«419311_j30124900614317_1_alg».proof.Proof.PreReal
import Idealize.ShloMosaic.Adequacy
import Idealize.ShloMosaic.Init

noncomputable section

namespace Cert.Proof

open Idealize.ShloMosaic Idealize.SL.Sem
open Cert.GraphNet

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

theorem algebraic : Cert.algebraic_KernelIdeal_ReferenceIdeal := by
  intro m ρ m' ρ' hpre hagree
  refine ⟨fun c => out varK (aggK9 (edgesK m c) (weightsK m c)) (aggK64 (edgesK m c) (weightsK m c)) (inputsK m c), ?_, ?_⟩
  · exact (θ_run Cert.KernelIdeal.defs _ _).mono
      (fun _ h c => ⟨(h c).1.trans (Cert.KernelIdeal.Chain.result_value m ρ c), (h c).2⟩)
      (Cert.KernelIdeal.GenP.run_value (F := Ideal) m ρ)
  · refine (θ_run Cert.ReferenceIdeal.defs _ _).mono (fun _ h c => ⟨(h c).1.trans ?_, (h c).2⟩)
      (Cert.ReferenceIdeal.Hand.run m' ρ')
    obtain ⟨h0, h1, h2, h3, h4, h5, h6, h7, h8, h9, h10, h11, h12, h13, h14, h15, h16, h17, h18, h19, h20⟩ := hagree c
    have hin : inputsR m' c = inputsK m c := by
      unfold inputsR inputsK
      rw [h0, h3, h4, h5, h6, h7, h8, h9, h10, h11, h12, h13, h14, h15, h16, h17, h18, h19, h20]
      rfl
    have hed : edgesR m' c = edgesK m c := by unfold edgesR edgesK; rw [h1]
    have hwt : weightsR m' c = weightsK m c := by unfold weightsR weightsK; rw [h2]
    dsimp only
    rw [Cert.ReferenceIdeal.Hand.refOut_read m' c, hin, hed, hwt, aggK9_eq, aggK64_eq]
    exact (out_varK_eq_varR _ _ _ (inputsK_real m hpre c)
      (aggR9_keepsReal _ _ (weightsK_real m hpre c)) (aggR64_keepsReal _ _ (weightsK_real m hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
